-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1024x4096 : Shape := ⟨2, ![1024, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part6 {F : FTy → Type} [FloatOps F] (main_arg21 : FVec F S1024x4096 .f32) (main_arg22 : FVec F S4096 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x4096 .f32 := Host.absf main_arg21
  let main_cst_40 : FVec F S_ .f32 := constant S_ .f32 0x7F800000#32
  let main_v105 : FVec F S1024x4096 .f32 := broadcastInDim S1024x4096 ![] bcast_S_S1024x4096 main_cst_40
  let main_v106 : IVec S1024x4096 1 := cmpf .olt main_v104 main_v105
  let main_c_41 : IVec S_ 1 := constantI S_ 1 1#1
  let main_v107 : IVec S_ 1 := (fun x v => Host.reduce IntOp.andi x v reducesTo_S1024x4096_S_d0_1 h_S_) main_v106 main_c_41
  let main_v108 : IVec S_ 1 := andi main_v103 main_v107
  let main_v109 : FVec F S4096 .f32 := Host.absf main_arg22
  let main_cst_42 : FVec F S_ .f32 := constant S_ .f32 0x7F800000#32
  let main_v110 : FVec F S4096 .f32 := broadcastInDim S4096 ![] bcast_S_S4096 main_cst_42
  let main_v111 : IVec S4096 1 := cmpf .olt main_v109 main_v110
  let main_c_43 : IVec S_ 1 := constantI S_ 1 1#1
  let main_v112 : IVec S_ 1 := (fun x v => Host.reduce IntOp.andi x v reducesTo_S4096_S_d0 h_S_) main_v111 main_c_43
  let main_v113 : IVec S_ 1 := andi main_v108 main_v112
  main_v113

def fn_part5 {F : FTy → Type} [FloatOps F] (main_arg18 : FVec F S4096 .f32) (main_arg19 : FVec F S1024x1024 .f32) (main_arg20 : FVec F S1024 .f32) (main_arg21 : FVec F S1024x4096 .f32) (main_arg22 : FVec F S4096 .f32) (main_v83 : IVec S_ 1) (main_v84 : FVec F S1024x4096 .f32) (main_cst_32 : FVec F S_ .f32) : IVec S_ 1 :=
  let main_v85 : FVec F S1024x4096 .f32 := broadcastInDim S1024x4096 ![] bcast_S_S1024x4096 main_cst_32
  let main_v86 : IVec S1024x4096 1 := cmpf .olt main_v84 main_v85
  let main_c_33 : IVec S_ 1 := constantI S_ 1 1#1
  let main_v87 : IVec S_ 1 := (fun x v => Host.reduce IntOp.andi x v reducesTo_S1024x4096_S_d0_1 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S512 .f32) (main_arg15 : FVec F S1024x1024 .f32) (main_arg16 : FVec F S1024 .f32) (main_arg17 : FVec F S1024x4096 .f32) (main_arg18 : FVec F S4096 .f32) (main_arg19 : FVec F S1024x1024 .f32) (main_arg20 : FVec F S1024 .f32) (main_arg21 : FVec F S1024x4096 .f32) (main_arg22 : FVec F S4096 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x4096 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S4096x1024 .f32) (main_arg12 : FVec F S1024 .f32) (main_arg13 : FVec F S1024x512 .f32) (main_arg14 : FVec F S512 .f32) (main_arg15 : FVec F S1024x1024 .f32) (main_arg16 : FVec F S1024 .f32) (main_arg17 : FVec F S1024x4096 .f32) (main_arg18 : FVec F S4096 .f32) (main_arg19 : FVec F S1024x1024 .f32) (main_arg20 : FVec F S1024 .f32) (main_arg21 : FVec F S1024x4096 .f32) (main_arg22 : FVec F S4096 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x512 .f32 := Host.absf main_arg13
  let main_cst_24 : FVec F S_ .f32 := constant S_ .f32 0x7F800000#32
  let main_v65 : FVec F S1024x512 .f32 := broadcastInDim S1024x512 ![] bcast_S_S1024x512 main_cst_24
  let main_v66 : IVec S1024x512 1 := cmpf .olt main_v64 main_v65
  let main_c_25 : IVec S_ 1 := constantI S_ 1 1#1
  let main_v67 : IVec S_ 1 := (fun x v => Host.reduce IntOp.andi x v reducesTo_S1024x512_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S4096x1024 .f32) (main_arg8 : FVec F S1024 .f32) (main_arg9 : FVec F S1024x512 .f32) (main_arg10 : FVec F S512 .f32) (main_arg11 : FVec F S4096x1024 .f32) (main_arg12 : FVec F S1024 .f32) (main_arg13 : FVec F S1024x512 .f32) (main_arg14 : FVec F S512 .f32) (main_arg15 : FVec F S1024x1024 .f32) (main_arg16 : FVec F S1024 .f32) (main_arg17 : FVec F S1024x4096 .f32) (main_arg18 : FVec F S4096 .f32) (main_arg19 : FVec F S1024x1024 .f32) (main_arg20 : FVec F S1024 .f32) (main_arg21 : FVec F S1024x4096 .f32) (main_arg22 : FVec F S4096 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S1024 .f32) (main_arg5 : FVec F S1024x512 .f32) (main_arg6 : FVec F S512 .f32) (main_arg7 : FVec F S4096x1024 .f32) (main_arg8 : FVec F S1024 .f32) (main_arg9 : FVec F S1024x512 .f32) (main_arg10 : FVec F S512 .f32) (main_arg11 : FVec F S4096x1024 .f32) (main_arg12 : FVec F S1024 .f32) (main_arg13 : FVec F S1024x512 .f32) (main_arg14 : FVec F S512 .f32) (main_arg15 : FVec F S1024x1024 .f32) (main_arg16 : FVec F S1024 .f32) (main_arg17 : FVec F S1024x4096 .f32) (main_arg18 : FVec F S4096 .f32) (main_arg19 : FVec F S1024x1024 .f32) (main_arg20 : FVec F S1024 .f32) (main_arg21 : FVec F S1024x4096 .f32) (main_arg22 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S16384x4096 .f32) (main_arg1 : FVec F S16384x4096 .f32) (main_arg2 : FVec F S4096x4096 .f32) (main_arg3 : FVec F S4096x1024 .f32) (main_arg4 : FVec F S1024 .f32) (main_arg5 : FVec F S1024x512 .f32) (main_arg6 : FVec F S512 .f32) (main_arg7 : FVec F S4096x1024 .f32) (main_arg8 : FVec F S1024 .f32) (main_arg9 : FVec F S1024x512 .f32) (main_arg10 : FVec F S512 .f32) (main_arg11 : FVec F S4096x1024 .f32) (main_arg12 : FVec F S1024 .f32) (main_arg13 : FVec F S1024x512 .f32) (main_arg14 : FVec F S512 .f32) (main_arg15 : FVec F S1024x1024 .f32) (main_arg16 : FVec F S1024 .f32) (main_arg17 : FVec F S1024x4096 .f32) (main_arg18 : FVec F S4096 .f32) (main_arg19 : FVec F S1024x1024 .f32) (main_arg20 : FVec F S1024 .f32) (main_arg21 : FVec F S1024x4096 .f32) (main_arg22 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S16384x4096 : Shape := ⟨2, ![16384, 4096]⟩
abbrev S4096x4096 : Shape := ⟨2, ![4096, 4096]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1024x4096 : Shape := ⟨2, ![1024, 4096]⟩
abbrev S4096 : Shape := ⟨1, ![4096]⟩
abbrev S1x1024 : Shape := ⟨2, ![1, 1024]⟩
abbrev S1x512 : Shape := ⟨2, ![1, 512]⟩
abbrev S16384x512 : Shape := ⟨2, ![16384, 512]⟩
abbrev S512x4096 : Shape := ⟨2, ![512, 4096]⟩
abbrev S512x512 : Shape := ⟨2, ![512, 512]⟩
abbrev S512x1024 : Shape := ⟨2, ![512, 1024]⟩
abbrev S4096x512 : Shape := ⟨2, ![4096, 512]⟩
abbrev S2048x512 : Shape := ⟨2, ![2048, 512]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 57
  | .vmem => 54
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x4096, .f32⟩
  | .hbm, ⟨3, _⟩ => ⟨S4096x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S4096x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S4096x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S4096, .f32⟩
  | .hbm, ⟨19, _⟩ => ⟨S1024x1024, .f32⟩
  | .hbm, ⟨20, _⟩ => ⟨S1024, .f32⟩
  | .hbm, ⟨21, _⟩ => ⟨S1024x4096, .f32⟩
  | .hbm, ⟨22, _⟩ => ⟨S4096, .f32⟩
  | .hbm, ⟨23, _⟩ => ⟨S16384x4096, .bf16⟩
  | .hbm, ⟨24, _⟩ => ⟨S16384x4096, .bf16⟩
  | .hbm, ⟨25, _⟩ => ⟨S4096x4096, .bf16⟩
  | .hbm, ⟨26, _⟩ => ⟨S4096x1024, .bf16⟩
  | .hbm, ⟨27, _⟩ => ⟨S1024x512, .bf16⟩
  | .hbm, ⟨28, _⟩ => ⟨S4096x1024, .bf16⟩
  | .hbm, ⟨29, _⟩ => ⟨S1024x512, .bf16⟩
  | .hbm, ⟨30, _⟩ => ⟨S4096x1024, .bf16⟩
  | .hbm, ⟨31, _⟩ => ⟨S1024x512, .bf16⟩
  | .hbm, ⟨32, _⟩ => ⟨S1024x1024, .bf16⟩
  | .hbm, ⟨33, _⟩ => ⟨S1024x4096, .bf16⟩
  | .hbm, ⟨34, _⟩ => ⟨S1024x1024, .bf16⟩
  | .hbm, ⟨35, _⟩ => ⟨S1024x4096, .bf16⟩
  | .hbm, ⟨36, _⟩ => ⟨S1x1024, .f32⟩
  | .hbm, ⟨37, _⟩ => ⟨S1x512, .f32⟩
  | .hbm, ⟨38, _⟩ => ⟨S16384x512, .f32⟩
  | .hbm, ⟨39, _⟩ => ⟨S1x1024, .f32⟩
  | .hbm, ⟨40, _⟩ => ⟨S1x512, .f32⟩
  | .hbm, ⟨41, _⟩ => ⟨S16384x512, .f32⟩
  | .hbm, ⟨42, _⟩ => ⟨S1x1024, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S1x1024, .f32⟩
  | .hbm, ⟨52, _⟩ => ⟨S1x4096, .f32⟩
  | .hbm, ⟨53, _⟩ => ⟨S4096x4096, .f32⟩
  | .hbm, ⟨54, _⟩ => ⟨S1x1024, .f32⟩
  | .hbm, ⟨55, _⟩ => ⟨S1x4096, .f32⟩
  | .hbm, ⟨56, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S1x1024, .f32⟩
  | .local _ .vmem, ⟨12, _⟩ => ⟨S1024x512, .bf16⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x4096, .bf16⟩
  | .local _ .vmem, ⟨17, _⟩ => ⟨S512x4096, .bf16⟩
  | .local _ .vmem, ⟨18, _⟩ => ⟨S4096x1024, .bf16⟩
  | .local _ .vmem, ⟨19, _⟩ => ⟨S1x1024, .f32⟩
  | .local _ .vmem, ⟨20, _⟩ => ⟨S1024x512, .bf16⟩
  | .local _ .vmem, ⟨21, _⟩ => ⟨S1x512, .f32⟩
  | .local _ .vmem, ⟨22, _⟩ => ⟨S512x512, .f32⟩
  | .local _ .vmem, ⟨23, _⟩ => ⟨S512x512, .f32⟩
  | .local _ .vmem, ⟨24, _⟩ => ⟨S2048x512, .bf16⟩
  | .local _ .vmem, ⟨25, _⟩ => ⟨S2048x512, .bf16⟩
  | .local _ .vmem, ⟨26, _⟩ => ⟨S2048x512, .f32⟩
  | .local _ .vmem, ⟨27, _⟩ => ⟨S2048x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S2048x512, .bf16⟩
  | .local _ .vmem, ⟨32, _⟩ => ⟨S2048x512, .bf16⟩
  | .local _ .vmem, ⟨33, _⟩ => ⟨S2048x512, .f32⟩
  | .local _ .vmem, ⟨34, _⟩ => ⟨S2048x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S256x1024, .bf16⟩
  | .local _ .vmem, ⟨39, _⟩ => ⟨S256x1024, .bf16⟩
  | .local _ .vmem, ⟨40, _⟩ => ⟨S1024x1024, .bf16⟩
  | .local _ .vmem, ⟨41, _⟩ => ⟨S1x1024, .f32⟩
  | .local _ .vmem, ⟨42, _⟩ => ⟨S1024x4096, .bf16⟩
  | .local _ .vmem, ⟨43, _⟩ => ⟨S1x4096, .f32⟩
  | .local _ .vmem, ⟨44, _⟩ => ⟨S256x4096, .f32⟩
  | .local _ .vmem, ⟨45, _⟩ => ⟨S256x4096, .f32⟩
  | .local _ .vmem, ⟨46, _⟩ => ⟨S256x1024, .bf16⟩
  | .local _ .vmem, ⟨47, _⟩ => ⟨S256x1024, .bf16⟩
  | .local _ .vmem, ⟨48, _⟩ => ⟨S1024x1024, .bf16⟩
  | .local _ .vmem, ⟨49, _⟩ => ⟨S1x1024, .f32⟩
  | .local _ .vmem, ⟨50, _⟩ => ⟨S1024x4096, .bf16⟩
  | .local _ .vmem, ⟨51, _⟩ => ⟨S1x4096, .f32⟩
  | .local _ .vmem, ⟨52, _⟩ => ⟨S256x4096, .f32⟩
  | .local _ .vmem, ⟨53, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem5_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x4096 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S256x4096 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x4096 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x4096 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x4096 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  concatenates_S4096x512_S4096x512_S4096x1024_d1 : Shape.Concatenates [S4096x512, S4096x512] S4096x1024 1
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S512x4096_S4096x1024_S512x1024_1_0_0_1_n_n_wf : DotDims.WF S512x4096 S4096x1024 S512x1024 [1] [0] [0] [1] [] []
  dot_S512x1024_S1024x512_S512x512_1_0_0_1_n_n_wf : DotDims.WF S512x1024 S1024x512 S512x512 [1] [0] [0] [1] [] []
  dot_S2048x512_S2048x512_S512x512_0_0_1_1_n_n_wf : DotDims.WF S2048x512 S2048x512 S512x512 [0] [0] [1] [1] [] []
  dot_S256x1024_S1024x1024_S256x1024_1_0_0_1_n_n_wf : DotDims.WF S256x1024 S1024x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .bf16 = 32 ∨ (Rect.block (s := S16384x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .bf16 = 32 ∨ (Rect.block (s := S16384x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x512.size a
  hwx1_3 : ∀ i : grid1.Coords, EltTy.bits .bf16 = 32 ∨ (Rect.block (s := S1024x512) S1024x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S16384x512.size a
  hwx1_5 : ∀ i : grid1.Coords, EltTy.bits .f32 = 32 ∨ (Rect.block (s := S16384x512) S512x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S1024x512.size a
  hwx2_3 : ∀ i : grid2.Coords, EltTy.bits .bf16 = 32 ∨ (Rect.block (s := S1024x512) S1024x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S4096x512.size a
  hwx2_5 : ∀ i : grid2.Coords, EltTy.bits .f32 = 32 ∨ (Rect.block (s := S4096x512) S512x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S16384x4096.size a
  hwx3_0 : ∀ i : grid3.Coords, EltTy.bits .bf16 = 32 ∨ (Rect.block (s := S16384x4096) S2048x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S16384x512.size a
  hwx3_1 : ∀ i : grid3.Coords, EltTy.bits .f32 = 32 ∨ (Rect.block (s := S16384x512) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S4096x512.size a
  hwx3_2 : ∀ i : grid3.Coords, EltTy.bits .f32 = 32 ∨ (Rect.block (s := S4096x512) S512x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S16384x4096.size a
  hwx4_0 : ∀ i : grid4.Coords, EltTy.bits .bf16 = 32 ∨ (Rect.block (s := S16384x4096) S2048x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S16384x512.size a
  hwx4_1 : ∀ i : grid4.Coords, EltTy.bits .f32 = 32 ∨ (Rect.block (s := S16384x512) S2048x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S4096x512.size a
  hwx4_2 : ∀ i : grid4.Coords, EltTy.bits .f32 = 32 ∨ (Rect.block (s := S4096x512) S512x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S4096x1024.size a
  hwx5_0 : ∀ i : grid5.Coords, EltTy.bits .bf16 = 32 ∨ (Rect.block (s := S4096x1024) S256x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .bf16 = 32 ∨ (Rect.block (s := S1024x1024) S1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x4096.size a ≤ S1024x4096.size a
  hwx5_3 : ∀ i : grid5.Coords, EltTy.bits .bf16 = 32 ∨ (Rect.block (s := S1024x4096) S1024x4096.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x4096.size a ≤ S1x4096.size a
  hwx5_4 : ∀ i : grid5.Coords, EltTy.bits .f32 = 32 ∨ (Rect.block (s := S1x4096) S1x4096.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S256x4096.size a ≤ S4096x4096.size a
  hwx5_5 : ∀ i : grid5.Coords, EltTy.bits .f32 = 32 ∨ (Rect.block (s := S4096x4096) S256x4096.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S4096x1024.size a
  hwx6_0 : ∀ i : grid6.Coords, EltTy.bits .bf16 = 32 ∨ (Rect.block (s := S4096x1024) S256x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x1024.size a
  hwx6_1 : ∀ i : grid6.Coords, EltTy.bits .bf16 = 32 ∨ (Rect.block (s := S1024x1024) S1024x1024.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x4096.size a ≤ S1024x4096.size a
  hwx6_3 : ∀ i : grid6.Coords, EltTy.bits .bf16 = 32 ∨ (Rect.block (s := S1024x4096) S1024x4096.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x4096.size a ≤ S1x4096.size a
  hwx6_4 : ∀ i : grid6.Coords, EltTy.bits .f32 = 32 ∨ (Rect.block (s := S1x4096) S1x4096.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S256x4096.size a ≤ S4096x4096.size a
  hwx6_5 : ∀ i : grid6.Coords, EltTy.bits .f32 = 32 ∨ (Rect.block (s := S4096x4096) S256x4096.size (cc6_transform_5 i) (hinb6_5 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4096x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S512x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v0) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v1) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S512x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v26) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S1024x4096.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v29) S1x4096.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v30) S256x4096.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v27) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S1024x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v31) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S1024x4096.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v32) S1x4096.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v33) S256x4096.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1024x4096 : Shape := ⟨2, ![1024, 4096]⟩
abbrev S4096 : Shape := ⟨1, ![4096]⟩
abbrev S16384x1024 : Shape := ⟨2, ![16384, 1024]⟩
abbrev S1x1024 : Shape := ⟨2, ![1, 1024]⟩
abbrev S_ : Shape := ⟨0, ![]⟩
abbrev S16384x512 : Shape := ⟨2, ![16384, 512]⟩
abbrev S1x512 : Shape := ⟨2, ![1, 512]⟩
abbrev S4096x512 : Shape := ⟨2, ![4096, 512]⟩
abbrev S4096x16384 : Shape := ⟨2, ![4096, 16384]⟩
abbrev S1x4096 : Shape := ⟨2, ![1, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x4096, .f32⟩
  | .hbm, ⟨3, _⟩ => ⟨S4096x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S4096x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S4096x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S4096, .f32⟩
  | .hbm, ⟨19, _⟩ => ⟨S1024x1024, .f32⟩
  | .hbm, ⟨20, _⟩ => ⟨S1024, .f32⟩
  | .hbm, ⟨21, _⟩ => ⟨S1024x4096, .f32⟩
  | .hbm, ⟨22, _⟩ => ⟨S4096, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x512, .f32⟩
  | .hbm, ⟨42, _⟩ => ⟨S1x512, .f32⟩
  | .hbm, ⟨43, _⟩ => ⟨S16384x512, .f32⟩
  | .hbm, ⟨44, _⟩ => ⟨S16384x512, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S4096x16384, .f32⟩
  | .hbm, ⟨57, _⟩ => ⟨S4096x512, .f32⟩
  | .hbm, ⟨58, _⟩ => ⟨S4096x16384, .f32⟩
  | .hbm, ⟨59, _⟩ => ⟨S4096x512, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x4096, .f32⟩
  | .hbm, ⟨70, _⟩ => ⟨S1x4096, .f32⟩
  | .hbm, ⟨71, _⟩ => ⟨S4096x4096, .f32⟩
  | .hbm, ⟨72, _⟩ => ⟨S4096x4096, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S4096x4096, .f32⟩
  | .hbm, ⟨81, _⟩ => ⟨S1x4096, .f32⟩
  | .hbm, ⟨82, _⟩ => ⟨S4096x4096, .f32⟩
  | .hbm, ⟨83, _⟩ => ⟨S4096x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_cst : Ref sig .tc := ⟨.hbm, 38, rfl⟩
abbrev main_call1_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call2_cst : Ref sig .tc := ⟨.hbm, 49, rfl⟩
abbrev main_call2_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call3_cst : Ref sig .tc := ⟨.hbm, 66, rfl⟩
abbrev main_call3_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call4_cst : Ref sig .tc := ⟨.hbm, 77, rfl⟩
abbrev main_call4_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1x512_S4096x512_0_1 : S1x512.BroadcastsInDim S4096x512 (![0, 1] : Fin 2 → Fin S4096x512.rank)
  transposes_S16384x4096_S4096x16384_1_0 : S16384x4096.Transposes [1, 0] S4096x16384
  concatenates_S4096x512_S4096x512_S4096x1024_d1 : Shape.Concatenates [S4096x512, S4096x512] S4096x1024 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S16384x4096_S4096x1024_S16384x1024_1_0_0_1_n_n_wf : DotDims.WF S16384x4096 S4096x1024 S16384x1024 [1] [0] [0] [1] [] []
  dot_S16384x1024_S1024x512_S16384x512_1_0_0_1_n_n_wf : DotDims.WF S16384x1024 S1024x512 S16384x512 [1] [0] [0] [1] [] []
  dot_S4096x4096_S4096x1024_S4096x1024_1_0_0_1_n_n_wf : DotDims.WF S4096x4096 S4096x1024 S4096x1024 [1] [0] [0] [1] [] []
  dot_S4096x1024_S1024x512_S4096x512_1_0_0_1_n_n_wf : DotDims.WF S4096x1024 S1024x512 S4096x512 [1] [0] [0] [1] [] []
  dot_S4096x16384_S16384x512_S4096x512_1_0_0_1_n_n_wf : DotDims.WF S4096x16384 S16384x512 S4096x512 [1] [0] [0] [1] [] []
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []

variable [Facts₀]

def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x16384_S16384x512_S4096x512_1_0_0_1_n_n : DotDims S4096x16384 S16384x512 S4096x512 where
  lhsContracting := [1]
  rhsContracting := [0]
  lhsNonContracting := [0]
  rhsNonContracting := [1]
  lhsBatch := []
  rhsBatch := []
  wf := dot_S4096x16384_S16384x512_S4096x512_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KI.Mlp0.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x4096 := Rect.unit (s := S512x4096) ![0, 0] S512x4096.size inb_S512x4096_S512x4096_0_0
abbrev r0_w1 : Rect S4096x1024 := Rect.unit (s := S4096x1024) ![0, 0] S4096x1024.size inb_S4096x1024_S4096x1024_0_0
abbrev r0_b1 : Rect S1x1024 := Rect.unit (s := S1x1024) ![0, 0] S1x1024.size inb_S1x1024_S1x1024_0_0
abbrev r0_w2 : Rect S1024x512 := Rect.unit (s := S1024x512) ![0, 0] S1024x512.size inb_S1024x512_S1024x512_0_0
abbrev r0_b2 : Rect S1x512 := Rect.unit (s := S1x512) ![0, 0] S1x512.size inb_S1x512_S1x512_0_0
abbrev r0_out : Rect S512x512 := Rect.unit (s := S512x512) ![0, 0] S512x512.size inb_S512x512_S512x512_0_0

def out0_5 (x : Vec F S512x4096 .bf16) (w1 : Vec F S4096x1024 .bf16) (b1 : Vec F S1x1024 .f32)
    (w2 : Vec F S1024x512 .bf16) (b2 : Vec F S1x512 .f32) : Vec F S512x512 .f32 :=
  View.canon [⟨r0_out, k0_pay1 (View.ld x r0_x) (View.ld w1 r0_w1) (View.ld b1 r0_b1) (View.ld w2 r0_w2) (View.ld b2 r0_b2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

theorem hin0 (c : Dev nD) : Pipeline.ΦA spec0 c ⊢ (dat0 V c).Φ 0 := .rfl
theorem hout0 (c : Dev nD) : (dat0 V c).Φ (Fin.last cfg0.N) ⊢ Pipeline.ΦA spec0 c := .rfl
theorem q_eq0 (c : Dev nD) (w : Fin cfg0.W) : (dat0 V c).q w = fullShare := rfl
theorem owed_eq0 (c : Dev nD) (j : Fin (cfg0.N + 1)) : (dat0 V c).owed j = 0 := rfl

-- The body leaves every input block in place, so what it finds in an input buffer is what it leaves there.
private theorem before_in (c : Dev nD) (w : Fin cfg0.W) (hw : w ≠ 5) (t : Fin cfg0.N) (d) :
    (dat0 V c).before w t d = (dat0 V c).after w t := by
  fin_cases w <;> first
    | exact absurd rfl hw
    | exact ((dat0 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation0 (c : Dev nD) : BodyObligation (dat0 (F := F) V c) (defs₀ (F := F)) Variants.none () Set.univ := fun t => by
  rw [bigSep_W0, bigSep_W0]
  simp (disch := decide) only [before_in]
  rw [show (dat0 V c).Φ t.succ = (dat0 V c).Φ t.castSucc from rfl,
    show (dat0 V c).owesAt () t.succ = (dat0 V c).owesAt () t.castSucc from rfl,
    show (dat0 V c).after 5 t = out0_5 ((dat0 V c).after 0 t) ((dat0 V c).after 1 t) ((dat0 V c).after 2 t) ((dat0 V c).after 3 t)
      ((dat0 V c).after 4 t) from by dsimp only [dat0]]
  sl_whnfR [defs₀, Defs.onTc]
  simp only [cc0__mlp2_kernel_eq_skeleton]; unfold cc0__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r0_out, _⟩] S512x512.size (by rfl) y

end Cert.KernelIdeal.Hand
-- ==== Proof.KI.Mlp1.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S512x4096 := Rect.unit (s := S512x4096) ![0, 0] S512x4096.size inb_S512x4096_S512x4096_0_0
abbrev r1_w1 : Rect S4096x1024 := Rect.unit (s := S4096x1024) ![0, 0] S4096x1024.size inb_S4096x1024_S4096x1024_0_0
abbrev r1_b1 : Rect S1x1024 := Rect.unit (s := S1x1024) ![0, 0] S1x1024.size inb_S1x1024_S1x1024_0_0
abbrev r1_w2 : Rect S1024x512 := Rect.unit (s := S1024x512) ![0, 0] S1024x512.size inb_S1024x512_S1024x512_0_0
abbrev r1_b2 : Rect S1x512 := Rect.unit (s := S1x512) ![0, 0] S1x512.size inb_S1x512_S1x512_0_0
abbrev r1_out : Rect S512x512 := Rect.unit (s := S512x512) ![0, 0] S512x512.size inb_S512x512_S512x512_0_0

def out1_5 (x : Vec F S512x4096 .bf16) (w1 : Vec F S4096x1024 .bf16) (b1 : Vec F S1x1024 .f32)
    (w2 : Vec F S1024x512 .bf16) (b2 : Vec F S1x512 .f32) : Vec F S512x512 .f32 :=
  View.canon [⟨r1_out, k1_pay1 (View.ld x r1_x) (View.ld w1 r1_w1) (View.ld b1 r1_b1) (View.ld w2 r1_w2) (View.ld b2 r1_b2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem hin1 (c : Dev nD) : Pipeline.ΦA spec1 c ⊢ (dat1 V c).Φ 0 := .rfl
theorem hout1 (c : Dev nD) : (dat1 V c).Φ (Fin.last cfg1.N) ⊢ Pipeline.ΦA spec1 c := .rfl
theorem q_eq1 (c : Dev nD) (w : Fin cfg1.W) : (dat1 V c).q w = fullShare := rfl
theorem owed_eq1 (c : Dev nD) (j : Fin (cfg1.N + 1)) : (dat1 V c).owed j = 0 := rfl

-- The body leaves every input block in place, so what it finds in an input buffer is what it leaves there.
private theorem before_in (c : Dev nD) (w : Fin cfg1.W) (hw : w ≠ 5) (t : Fin cfg1.N) (d) :
    (dat1 V c).before w t d = (dat1 V c).after w t := by
  fin_cases w <;> first
    | exact absurd rfl hw
    | exact ((dat1 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation1 (c : Dev nD) : BodyObligation (dat1 (F := F) V c) (defs₀ (F := F)) Variants.none () Set.univ := fun t => by
  rw [bigSep_W1, bigSep_W1]
  simp (disch := decide) only [before_in]
  rw [show (dat1 V c).Φ t.succ = (dat1 V c).Φ t.castSucc from rfl,
    show (dat1 V c).owesAt () t.succ = (dat1 V c).owesAt () t.castSucc from rfl,
    show (dat1 V c).after 5 t = out1_5 ((dat1 V c).after 0 t) ((dat1 V c).after 1 t) ((dat1 V c).after 2 t) ((dat1 V c).after 3 t)
      ((dat1 V c).after 4 t) from by dsimp only [dat1]]
  sl_whnfR [defs₀, Defs.onTc]
  simp only [cc1__mlp2_kernel_eq_skeleton]; unfold cc1__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r1_out, _⟩] S512x512.size (by rfl) y

end Cert.KernelIdeal.Hand
-- ==== Proof.KI.Mlp2.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x4096 := Rect.unit (s := S512x4096) ![0, 0] S512x4096.size inb_S512x4096_S512x4096_0_0
abbrev r2_w1 : Rect S4096x1024 := Rect.unit (s := S4096x1024) ![0, 0] S4096x1024.size inb_S4096x1024_S4096x1024_0_0
abbrev r2_b1 : Rect S1x1024 := Rect.unit (s := S1x1024) ![0, 0] S1x1024.size inb_S1x1024_S1x1024_0_0
abbrev r2_w2 : Rect S1024x512 := Rect.unit (s := S1024x512) ![0, 0] S1024x512.size inb_S1024x512_S1024x512_0_0
abbrev r2_b2 : Rect S1x512 := Rect.unit (s := S1x512) ![0, 0] S1x512.size inb_S1x512_S1x512_0_0
abbrev r2_out : Rect S512x512 := Rect.unit (s := S512x512) ![0, 0] S512x512.size inb_S512x512_S512x512_0_0

def out2_5 (x : Vec F S512x4096 .bf16) (w1 : Vec F S4096x1024 .bf16) (b1 : Vec F S1x1024 .f32)
    (w2 : Vec F S1024x512 .bf16) (b2 : Vec F S1x512 .f32) : Vec F S512x512 .f32 :=
  View.canon [⟨r2_out, k2_pay1 (View.ld x r2_x) (View.ld w1 r2_w1) (View.ld b1 r2_b1) (View.ld w2 r2_w2) (View.ld b2 r2_b2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

theorem hin2 (c : Dev nD) : Pipeline.ΦA spec2 c ⊢ (dat2 V c).Φ 0 := .rfl
theorem hout2 (c : Dev nD) : (dat2 V c).Φ (Fin.last cfg2.N) ⊢ Pipeline.ΦA spec2 c := .rfl
theorem q_eq2 (c : Dev nD) (w : Fin cfg2.W) : (dat2 V c).q w = fullShare := rfl
theorem owed_eq2 (c : Dev nD) (j : Fin (cfg2.N + 1)) : (dat2 V c).owed j = 0 := rfl

-- The body leaves every input block in place, so what it finds in an input buffer is what it leaves there.
private theorem before_in (c : Dev nD) (w : Fin cfg2.W) (hw : w ≠ 5) (t : Fin cfg2.N) (d) :
    (dat2 V c).before w t d = (dat2 V c).after w t := by
  fin_cases w <;> first
    | exact absurd rfl hw
    | exact ((dat2 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation2 (c : Dev nD) : BodyObligation (dat2 (F := F) V c) (defs₀ (F := F)) Variants.none () Set.univ := fun t => by
  rw [bigSep_W2, bigSep_W2]
  simp (disch := decide) only [before_in]
  rw [show (dat2 V c).Φ t.succ = (dat2 V c).Φ t.castSucc from rfl,
    show (dat2 V c).owesAt () t.succ = (dat2 V c).owesAt () t.castSucc from rfl,
    show (dat2 V c).after 5 t = out2_5 ((dat2 V c).after 0 t) ((dat2 V c).after 1 t) ((dat2 V c).after 2 t) ((dat2 V c).after 3 t)
      ((dat2 V c).after 4 t) from by dsimp only [dat2]]
  sl_whnfR [defs₀, Defs.onTc]
  simp only [cc2__mlp2_kernel_eq_skeleton]; unfold cc2__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r2_out, _⟩] S512x512.size (by rfl) y

end Cert.KernelIdeal.Hand
-- ==== Proof.KI.Pool3.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_1 (i : grid3.Coords) : Prop :=
  (Scalar.cmpi .ne (Scalar.extui (Scalar.cmpi .eq (BitVec.ofNat 32 (i 1).val) 0#32)) 0#32) = 1#1
-- Point t of the grid has reduction coordinate t % 8: the first condition holds where it is 0,
theorem hcond3_1 : ∀ t : Fin grid3.N, cond3_1 (grid3.coords t) ↔ t.val % 8 = 0 := by decide +kernel

abbrev cond3_2 (i : grid3.Coords) : Prop := k3_cond2 i = 1#1
-- the second where it is 7.
theorem hcond3_2 : ∀ t : Fin grid3.N, cond3_2 (grid3.coords t) ↔ t.val % 8 = 7 := by decide +kernel

theorem idleAt3_2 : ∀ t : Fin grid3.N, cfg3.idle 2 (grid3.coords t) = true ↔ ¬t.val % 8 = 7 := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S512x512 .f32 := Memref.whole cc3_scratch0

abbrev rectO3 : Rect S512x512 := Rect.unit (s := S512x512) ![0, 0] S512x512.size inb_S512x512_S512x512_0_0
abbrev rectI3 : Rect S2048x512 := Rect.unit (s := S2048x512) ![0, 0] S2048x512.size inb_S2048x512_S2048x512_0_0

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

@[irreducible] def poolZero3 : Vec F S512x512 .f32 := View.canon [⟨rectO3, k3_pay1 (F := F)⟩]

@[irreducible] def poolAcc3 (a : Vec F S2048x512 .bf16) (b : Vec F S2048x512 .f32) (s : Vec F S512x512 .f32) : Vec F S512x512 .f32 :=
  View.canon [⟨rectO3, k3_pay2 (View.ld a rectI3) (View.ld b rectI3) (View.ld s rectO3)⟩]

theorem mem_rectO3 (y : S512x512.Idx) : y ∈ rectO3.set :=
  Rect.mem_set_unit.mpr fun a => by
    have h0 : (![0, 0] : Fin 2 → ℕ) a = 0 := by fin_cases a <;> rfl
    have := (y a).isLt
    exact ⟨by rw [h0]; exact Nat.zero_le _, by rw [h0, Nat.zero_add]; exact this⟩

-- A whole-tile store hides every earlier one,
theorem canon_head3 (w : rectO3.shape.Idx → Elt F .f32) (L : List (View.Piece (Elt F) S512x512 .f32)) :
    View.canon (⟨rectO3, w⟩ :: L) = View.canon [⟨rectO3, w⟩] := by
  funext y
  obtain ⟨x, rfl⟩ : ∃ x, rectO3.emb x = y := rectO3.exists_idx_of_mem (mem_rectO3 y)
  rw [View.canon_cons_emb, View.canon_cons_emb]

theorem canon_ld3 (X : Vec F S512x512 .f32) : View.canon [⟨rectO3, View.ld X rectO3⟩] = X := by
  funext y
  obtain ⟨x, rfl⟩ : ∃ x, rectO3.emb x = y := rectO3.exists_idx_of_mem (mem_rectO3 y)
  rw [View.canon_cons_emb]; rfl

-- and covers the tile.
theorem cover_one3 (w : rectO3.shape.Idx → Elt F .f32) (L : List (View.Piece (Elt F) S512x512 .f32)) :
    ∀ y, ∃ p ∈ ((⟨rectO3, w⟩ : View.Piece (Elt F) S512x512 .f32) :: L), y ∈ p.1.set :=
  fun y => ⟨⟨rectO3, w⟩, List.mem_cons_self, mem_rectO3 y⟩

theorem readAt_unread3 {sp : Space} {s : Shape} {e : EltTy} (m : Memref sig .tc sp s e) (h : m.IsWhole) (X : s.Idx → Elt F e) (r : Rect s) :
    m.view.readAt (Elt F) r.toLoadRect (h.unread X) = View.ld X r :=
  funext fun _ => congrFun (h.read_unread X) _

-- What is read back after whole-tile stores is the last one's payload,
theorem read_step3 {sp : Space} (m : Memref sig .tc sp S512x512 .f32) (f : m.view.ty.Contents (Elt F)) (w : rectO3.shape.Idx → Elt F .f32)
    (L : List (View.Piece (Elt F) S512x512 .f32)) :
    m.view.read (Elt F) (m.view.writes (Elt F) f (⟨rectO3, w⟩ :: L)) = View.canon [⟨rectO3, w⟩] := by
  rw [View.read_writes_eq_canon _ _ _ (cover_one3 _ _), canon_head3]

-- and a tile stored whole as it was just loaded is itself.
theorem read_emit3 {sp : Space} (m : Memref sig .tc sp S512x512 .f32) (w : rectO3.shape.Idx → Elt F .f32) :
    View.canon [(⟨rectO3, m.view.readCov [⟨rectO3, w⟩] rectO3.toLoadRect⟩ : View.Piece (Elt F) S512x512 .f32)] = View.canon [⟨rectO3, w⟩] := by
  rw [View.readCov_eq_canon_ld _ _ _ (cover_one3 _ _), canon_ld3]

-- One step's store, the accumulator having been loaded as S, is the closed form.
theorem canon_step3 (aM : Memref sig .tc .vmem S2048x512 .bf16) (haM : aM.IsWhole) (bM : Memref sig .tc .vmem S2048x512 .f32) (hbM : bM.IsWhole)
    (x0 : Vec F S2048x512 .bf16) (x1 : Vec F S2048x512 .f32) (S xs : Vec F S512x512 .f32) (hS : S = View.ld xs rectO3) :
    View.canon [(⟨rectO3, k3_pay2 (aM.view.readAt (Elt F) rectI3.toLoadRect (haM.unread x0)) (bM.view.readAt (Elt F) rectI3.toLoadRect (hbM.unread x1)) S⟩
      : View.Piece (Elt F) S512x512 .f32)] = poolAcc3 x0 x1 xs := by
  subst hS; unfold poolAcc3
  rw [readAt_unread3, readAt_unread3]

set_option maxHeartbeats 1000000 in
-- The body's run: the accumulator restarts from zero where the first condition holds, takes one step, and is copied out where the second holds.
theorem kernelRun3_A (c : Dev nD) (i : grid3.Coords) (aM : Memref sig .tc .vmem S2048x512 .bf16) (haM : aM.IsWhole) (bM : Memref sig .tc .vmem S2048x512 .f32) (hbM : bM.IsWhole) (oM : Memref sig .tc .vmem S512x512 .f32) (hoM : oM.IsWhole) (sM : Memref sig .tc .vmem S512x512 .f32) (hsM : sM.IsWhole) (h12 : cond3_1 i → ¬cond3_2 i)
    (x0 : Vec F S2048x512 .bf16) (x1 : Vec F S2048x512 .f32) (xo xs : Vec F S512x512 .f32) (E : Set ℕ) (K : PUnit → sProp 𝕄) :
    iprop(owns (c : Thread nD τ) aM fullShare x0 ∗ owns (c : Thread nD τ) bM fullShare x1 ∗ owns (c : Thread nD τ) oM fullShare xo ∗ owns (c : Thread nD τ) sM fullShare xs
        ∗ (iprop(owns (c : Thread nD τ) aM fullShare x0 ∗ owns (c : Thread nD τ) bM fullShare x1
            ∗ owns (c : Thread nD τ) oM fullShare (if cond3_2 i then poolAcc3 x0 x1 (if cond3_1 i then poolZero3 else xs) else xo)
            ∗ owns (c : Thread nD τ) sM fullShare (poolAcc3 x0 x1 (if cond3_1 i then poolZero3 else xs))) -∗ K ⟨⟩))
      ⊢ wp frame (wpE (defs₀ (F := F)) Variants.none c none) E (cc3__pool_kernel i aM haM bM hbM oM hoM sM hsM) K := by
  simp only [cc3__pool_kernel_eq_skeleton]; unfold cc3__pool_kernel_skel owns
  by_cases hc1 : cond3_1 i <;> by_cases hc2 : cond3_2 i
  · exact absurd hc2 (h12 hc1)
  all_goals
    first | rw [if_pos hc1] | rw [if_neg hc1]
    first | rw [if_pos hc2] | rw [if_neg hc2]
    iintro ⟨⟨%f0, %hf0, H0⟩, ⟨%f1, %hf1, H1⟩, ⟨%f2, %hf2, H2⟩, ⟨%fs, %hfs, HS⟩, Hk⟩
    obtain rfl := haM.eq_unread hf0; obtain rfl := hbM.eq_unread hf1; obtain rfl := hsM.eq_unread hfs
    sl_exec (disch := first | exact hc1 | exact hc2)
    sl_step
    iapply Hk
    isplitl [H0]
    · iexists _; isplitr; · ipureintro; exact hf0
      iexact H0
    isplitl [H1]
    · iexists _; isplitr; · ipureintro; exact hf1
      iexact H1
    isplitl [H2]
    on_goal 2 => iexists _; isplitr; swap; · iexact HS
    on_goal 1 => iexists _; isplitr; swap; · iexact H2
    all_goals ipureintro
  · exact hf2
  · exact (read_step3 _ _ _ _).trans (canon_step3 aM haM bM hbM x0 x1 _ _ (by unfold poolZero3; exact View.readCov_eq_canon_ld _ _ _ (cover_one3 _ _)))
  · exact (read_step3 _ _ _ _).trans ((read_emit3 sM _).trans (canon_step3 aM haM bM hbM x0 x1 _ _ (readAt_unread3 sM hsM xs rectO3)))
  · exact (read_step3 _ _ _ _).trans (canon_step3 aM haM bM hbM x0 x1 _ _ (readAt_unread3 sM hsM xs rectO3))
  · exact hf2
  · exact (read_step3 _ _ _ _).trans (canon_step3 aM haM bM hbM x0 x1 _ _ (readAt_unread3 sM hsM xs rectO3))

def outsAt3 (c : Dev nD) : (n : ℕ) → n < cfg3.N → Vec F S512x512 .f32
  | 0, hn => poolAcc3 (iblk3 V c 0 ⟨0, hn⟩) (iblk3 V c 1 ⟨0, hn⟩) poolZero3
  | n + 1, hn => poolAcc3 (iblk3 V c 0 ⟨n + 1, hn⟩) (iblk3 V c 1 ⟨n + 1, hn⟩)
      (if (n + 1) % 8 = 0 then poolZero3 else outsAt3 c n (Nat.lt_of_succ_lt hn))

theorem outsAt3_first (c : Dev nD) (t : Fin cfg3.N) (h : t.val % 8 = 0) :
    outsAt3 V c t.val t.isLt = poolAcc3 (iblk3 V c 0 t) (iblk3 V c 1 t) poolZero3 := by
  obtain ⟨n, hn⟩ := t
  cases n with
  | zero => rfl
  | succ n => exact congrArg _ (if_pos h)

theorem outsAt3_next (c : Dev nD) (t : Fin cfg3.N) (h : ¬t.val % 8 = 0) :
    outsAt3 V c t.val t.isLt
      = poolAcc3 (iblk3 V c 0 t) (iblk3 V c 1 t) (outsAt3 V c (t.val - 1) (Nat.lt_of_le_of_lt (Nat.sub_le _ _) t.isLt)) := by
  obtain ⟨n, hn⟩ := t
  cases n with
  | zero => exact absurd (Nat.zero_mod _) h
  | succ n => exact congrArg _ (if_neg h)

-- Between points the accumulator holds what the point before left; before the first point, anything.
def PhiS3 (c : Dev nD) (n : ℕ) (hn : n ≤ cfg3.N) : sProp 𝕄 :=
  iprop(iprop((∃ d, ⌜∀ h : n ≠ 0, d = outsAt3 V c (n - 1) (by omega)⌝ ∗ owns (c : Thread nD τ) scM3 fullShare d)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outsAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (j : Fin (cfg3.N + 1)) : (dat3 V c).owed j = 0 := rfl

theorem after3_2 (c : Dev nD) (t : Fin cfg3.N) : (dat3 V c).after 2 t = outsAt3 V c t.val t.isLt := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

abbrev ms3_0 (t : Fin cfg3.N) : Memref sig .tc .vmem S2048x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.castSucc = PhiS3 V c t.val (Nat.le_of_lt t.isLt) from rfl,
    show (dat3 V c).Φ t.succ = PhiS3 V c (t.val + 1) t.isLt from rfl,
    show (dat3 V c).leavesExact 0 t = owns (c : Thread nD τ) (ms3_0 t) fullShare (iblk3 V c 0 t) from rfl,
    show (dat3 V c).leavesExact 1 t = owns (c : Thread nD τ) (ms3_1 t) fullShare (iblk3 V c 1 t) from rfl]
  unfold PhiS3
  iintro ⟨⟨⟨⟨%d, %hd, HS⟩, Hr⟩, Hg⟩, Ho, ⟨%d0, H0⟩, ⟨%d1, H1⟩, ⟨%d2, H2⟩⟩
  have hA : poolAcc3 (iblk3 V c 0 t) (iblk3 V c 1 t) (if cond3_1 (grid3.coords t) then poolZero3 else d) = outsAt3 V c t.val t.isLt := by
    by_cases h0 : t.val % 8 = 0
    · rw [if_pos ((hcond3_1 t).mpr h0), outsAt3_first V c t h0]
    · rw [if_neg (mt (hcond3_1 t).mp h0), outsAt3_next V c t h0, hd (fun h => h0 (by rw [h]))]
  iapply (kernelRun3_A c (grid3.coords t) _ (hs3_0 t) _ (hs3_1 t) _ (hs3_2 t) scM3 (Memref.isWhole_whole _)
    (fun h1 h2 => absurd ((hcond3_2 t).mp h2) (by rw [(hcond3_1 t).mp h1]; decide)) (iblk3 V c 0 t) (iblk3 V c 1 t) ((dat3 V c).before 2 t d2) d Set.univ _)
  rw [hA]
  iframe H0 H1 H2 HS
  iintro ⟨H0, H1, H2, HS⟩
  iframe Ho H0 H1 Hr Hg
  isplitl [HS]
  · iexists outsAt3 V c t.val t.isLt; isplitr; · ipureintro; exact fun _ => rfl
    iexact HS
  by_cases h7 : t.val % 8 = 7
  · rw [if_pos ((hcond3_2 t).mpr h7), show (dat3 V c).leavesExact 2 t = owns (c : Thread nD τ) (ms3_2 t) fullShare (outsAt3 V c t.val t.isLt) from by
      unfold Dat.leavesExact; rw [Bool.eq_false_iff.mpr fun hb => (idleAt3_2 t).mp hb h7]; rfl]
    iexact H2
  · rw [if_neg (mt (hcond3_2 t).mp h7), Dat.leavesExact_idle (dat3 V c) 2 t ((idleAt3_2 t).mpr h7) (Bool.eq_false_iff.mpr (mt (flush3_2 t).mp h7))]
    iexists d2; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiA3_eq]; unfold PhiS3
  iintro ⟨⟨⟨%d, HS⟩, Hr⟩, Hg⟩
  iframe Hr Hg
  iexists d; isplitr; · ipureintro; exact fun h => absurd rfl h
  iexact HS

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiA3_eq]; unfold PhiS3
  iintro ⟨⟨⟨%d, -, HS⟩, Hr⟩, Hg⟩
  iframe Hr Hg
  iexists d; iexact HS

end Cert.KernelIdeal.Hand

end
-- ==== Proof.KI.Pool4.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_1 (i : grid4.Coords) : Prop :=
  (Scalar.cmpi .ne (Scalar.extui (Scalar.cmpi .eq (BitVec.ofNat 32 (i 1).val) 0#32)) 0#32) = 1#1
-- Point t of the grid has reduction coordinate t % 8: the first condition holds where it is 0,
theorem hcond4_1 : ∀ t : Fin grid4.N, cond4_1 (grid4.coords t) ↔ t.val % 8 = 0 := by decide +kernel

abbrev cond4_2 (i : grid4.Coords) : Prop := k4_cond2 i = 1#1
-- the second where it is 7.
theorem hcond4_2 : ∀ t : Fin grid4.N, cond4_2 (grid4.coords t) ↔ t.val % 8 = 7 := by decide +kernel

theorem idleAt4_2 : ∀ t : Fin grid4.N, cfg4.idle 2 (grid4.coords t) = true ↔ ¬t.val % 8 = 7 := by decide +kernel

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S512x512 .f32 := Memref.whole cc4_scratch0

abbrev rectO4 : Rect S512x512 := Rect.unit (s := S512x512) ![0, 0] S512x512.size inb_S512x512_S512x512_0_0
abbrev rectI4 : Rect S2048x512 := Rect.unit (s := S2048x512) ![0, 0] S2048x512.size inb_S2048x512_S2048x512_0_0

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

@[irreducible] def poolZero4 : Vec F S512x512 .f32 := View.canon [⟨rectO4, k4_pay1 (F := F)⟩]

@[irreducible] def poolAcc4 (a : Vec F S2048x512 .bf16) (b : Vec F S2048x512 .f32) (s : Vec F S512x512 .f32) : Vec F S512x512 .f32 :=
  View.canon [⟨rectO4, k4_pay2 (View.ld a rectI4) (View.ld b rectI4) (View.ld s rectO4)⟩]

theorem mem_rectO4 (y : S512x512.Idx) : y ∈ rectO4.set :=
  Rect.mem_set_unit.mpr fun a => by
    have h0 : (![0, 0] : Fin 2 → ℕ) a = 0 := by fin_cases a <;> rfl
    have := (y a).isLt
    exact ⟨by rw [h0]; exact Nat.zero_le _, by rw [h0, Nat.zero_add]; exact this⟩

-- A whole-tile store hides every earlier one,
theorem canon_head4 (w : rectO4.shape.Idx → Elt F .f32) (L : List (View.Piece (Elt F) S512x512 .f32)) :
    View.canon (⟨rectO4, w⟩ :: L) = View.canon [⟨rectO4, w⟩] := by
  funext y
  obtain ⟨x, rfl⟩ : ∃ x, rectO4.emb x = y := rectO4.exists_idx_of_mem (mem_rectO4 y)
  rw [View.canon_cons_emb, View.canon_cons_emb]

theorem canon_ld4 (X : Vec F S512x512 .f32) : View.canon [⟨rectO4, View.ld X rectO4⟩] = X := by
  funext y
  obtain ⟨x, rfl⟩ : ∃ x, rectO4.emb x = y := rectO4.exists_idx_of_mem (mem_rectO4 y)
  rw [View.canon_cons_emb]; rfl

-- and covers the tile.
theorem cover_one4 (w : rectO4.shape.Idx → Elt F .f32) (L : List (View.Piece (Elt F) S512x512 .f32)) :
    ∀ y, ∃ p ∈ ((⟨rectO4, w⟩ : View.Piece (Elt F) S512x512 .f32) :: L), y ∈ p.1.set :=
  fun y => ⟨⟨rectO4, w⟩, List.mem_cons_self, mem_rectO4 y⟩

theorem readAt_unread4 {sp : Space} {s : Shape} {e : EltTy} (m : Memref sig .tc sp s e) (h : m.IsWhole) (X : s.Idx → Elt F e) (r : Rect s) :
    m.view.readAt (Elt F) r.toLoadRect (h.unread X) = View.ld X r :=
  funext fun _ => congrFun (h.read_unread X) _

-- What is read back after whole-tile stores is the last one's payload,
theorem read_step4 {sp : Space} (m : Memref sig .tc sp S512x512 .f32) (f : m.view.ty.Contents (Elt F)) (w : rectO4.shape.Idx → Elt F .f32)
    (L : List (View.Piece (Elt F) S512x512 .f32)) :
    m.view.read (Elt F) (m.view.writes (Elt F) f (⟨rectO4, w⟩ :: L)) = View.canon [⟨rectO4, w⟩] := by
  rw [View.read_writes_eq_canon _ _ _ (cover_one4 _ _), canon_head4]

-- and a tile stored whole as it was just loaded is itself.
theorem read_emit4 {sp : Space} (m : Memref sig .tc sp S512x512 .f32) (w : rectO4.shape.Idx → Elt F .f32) :
    View.canon [(⟨rectO4, m.view.readCov [⟨rectO4, w⟩] rectO4.toLoadRect⟩ : View.Piece (Elt F) S512x512 .f32)] = View.canon [⟨rectO4, w⟩] := by
  rw [View.readCov_eq_canon_ld _ _ _ (cover_one4 _ _), canon_ld4]

-- One step's store, the accumulator having been loaded as S, is the closed form.
theorem canon_step4 (aM : Memref sig .tc .vmem S2048x512 .bf16) (haM : aM.IsWhole) (bM : Memref sig .tc .vmem S2048x512 .f32) (hbM : bM.IsWhole)
    (x0 : Vec F S2048x512 .bf16) (x1 : Vec F S2048x512 .f32) (S xs : Vec F S512x512 .f32) (hS : S = View.ld xs rectO4) :
    View.canon [(⟨rectO4, k4_pay2 (aM.view.readAt (Elt F) rectI4.toLoadRect (haM.unread x0)) (bM.view.readAt (Elt F) rectI4.toLoadRect (hbM.unread x1)) S⟩
      : View.Piece (Elt F) S512x512 .f32)] = poolAcc4 x0 x1 xs := by
  subst hS; unfold poolAcc4
  rw [readAt_unread4, readAt_unread4]

set_option maxHeartbeats 1000000 in
-- The body's run: the accumulator restarts from zero where the first condition holds, takes one step, and is copied out where the second holds.
theorem kernelRun4_A (c : Dev nD) (i : grid4.Coords) (aM : Memref sig .tc .vmem S2048x512 .bf16) (haM : aM.IsWhole) (bM : Memref sig .tc .vmem S2048x512 .f32) (hbM : bM.IsWhole) (oM : Memref sig .tc .vmem S512x512 .f32) (hoM : oM.IsWhole) (sM : Memref sig .tc .vmem S512x512 .f32) (hsM : sM.IsWhole) (h12 : cond4_1 i → ¬cond4_2 i)
    (x0 : Vec F S2048x512 .bf16) (x1 : Vec F S2048x512 .f32) (xo xs : Vec F S512x512 .f32) (E : Set ℕ) (K : PUnit → sProp 𝕄) :
    iprop(owns (c : Thread nD τ) aM fullShare x0 ∗ owns (c : Thread nD τ) bM fullShare x1 ∗ owns (c : Thread nD τ) oM fullShare xo ∗ owns (c : Thread nD τ) sM fullShare xs
        ∗ (iprop(owns (c : Thread nD τ) aM fullShare x0 ∗ owns (c : Thread nD τ) bM fullShare x1
            ∗ owns (c : Thread nD τ) oM fullShare (if cond4_2 i then poolAcc4 x0 x1 (if cond4_1 i then poolZero4 else xs) else xo)
            ∗ owns (c : Thread nD τ) sM fullShare (poolAcc4 x0 x1 (if cond4_1 i then poolZero4 else xs))) -∗ K ⟨⟩))
      ⊢ wp frame (wpE (defs₀ (F := F)) Variants.none c none) E (cc4__pool_kernel i aM haM bM hbM oM hoM sM hsM) K := by
  simp only [cc4__pool_kernel_eq_skeleton]; unfold cc4__pool_kernel_skel owns
  by_cases hc1 : cond4_1 i <;> by_cases hc2 : cond4_2 i
  · exact absurd hc2 (h12 hc1)
  all_goals
    first | rw [if_pos hc1] | rw [if_neg hc1]
    first | rw [if_pos hc2] | rw [if_neg hc2]
    iintro ⟨⟨%f0, %hf0, H0⟩, ⟨%f1, %hf1, H1⟩, ⟨%f2, %hf2, H2⟩, ⟨%fs, %hfs, HS⟩, Hk⟩
    obtain rfl := haM.eq_unread hf0; obtain rfl := hbM.eq_unread hf1; obtain rfl := hsM.eq_unread hfs
    sl_exec (disch := first | exact hc1 | exact hc2)
    sl_step
    iapply Hk
    isplitl [H0]
    · iexists _; isplitr; · ipureintro; exact hf0
      iexact H0
    isplitl [H1]
    · iexists _; isplitr; · ipureintro; exact hf1
      iexact H1
    isplitl [H2]
    on_goal 2 => iexists _; isplitr; swap; · iexact HS
    on_goal 1 => iexists _; isplitr; swap; · iexact H2
    all_goals ipureintro
  · exact hf2
  · exact (read_step4 _ _ _ _).trans (canon_step4 aM haM bM hbM x0 x1 _ _ (by unfold poolZero4; exact View.readCov_eq_canon_ld _ _ _ (cover_one4 _ _)))
  · exact (read_step4 _ _ _ _).trans ((read_emit4 sM _).trans (canon_step4 aM haM bM hbM x0 x1 _ _ (readAt_unread4 sM hsM xs rectO4)))
  · exact (read_step4 _ _ _ _).trans (canon_step4 aM haM bM hbM x0 x1 _ _ (readAt_unread4 sM hsM xs rectO4))
  · exact hf2
  · exact (read_step4 _ _ _ _).trans (canon_step4 aM haM bM hbM x0 x1 _ _ (readAt_unread4 sM hsM xs rectO4))

def outsAt4 (c : Dev nD) : (n : ℕ) → n < cfg4.N → Vec F S512x512 .f32
  | 0, hn => poolAcc4 (iblk4 V c 0 ⟨0, hn⟩) (iblk4 V c 1 ⟨0, hn⟩) poolZero4
  | n + 1, hn => poolAcc4 (iblk4 V c 0 ⟨n + 1, hn⟩) (iblk4 V c 1 ⟨n + 1, hn⟩)
      (if (n + 1) % 8 = 0 then poolZero4 else outsAt4 c n (Nat.lt_of_succ_lt hn))

theorem outsAt4_first (c : Dev nD) (t : Fin cfg4.N) (h : t.val % 8 = 0) :
    outsAt4 V c t.val t.isLt = poolAcc4 (iblk4 V c 0 t) (iblk4 V c 1 t) poolZero4 := by
  obtain ⟨n, hn⟩ := t
  cases n with
  | zero => rfl
  | succ n => exact congrArg _ (if_pos h)

theorem outsAt4_next (c : Dev nD) (t : Fin cfg4.N) (h : ¬t.val % 8 = 0) :
    outsAt4 V c t.val t.isLt
      = poolAcc4 (iblk4 V c 0 t) (iblk4 V c 1 t) (outsAt4 V c (t.val - 1) (Nat.lt_of_le_of_lt (Nat.sub_le _ _) t.isLt)) := by
  obtain ⟨n, hn⟩ := t
  cases n with
  | zero => exact absurd (Nat.zero_mod _) h
  | succ n => exact congrArg _ (if_neg h)

-- Between points the accumulator holds what the point before left; before the first point, anything.
def PhiS4 (c : Dev nD) (n : ℕ) (hn : n ≤ cfg4.N) : sProp 𝕄 :=
  iprop(iprop((∃ d, ⌜∀ h : n ≠ 0, d = outsAt4 V c (n - 1) (by omega)⌝ ∗ owns (c : Thread nD τ) scM4 fullShare d)
      ∗ Pipeline.scopedRestBut (Ix := Unit) (Name := ℕ) (U := UR sig nD τ) (Lvl := ℕ) (Val := Elt F) spec4 c [cc4_scratch0]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outsAt4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (j : Fin (cfg4.N + 1)) : (dat4 V c).owed j = 0 := rfl

theorem after4_2 (c : Dev nD) (t : Fin cfg4.N) : (dat4 V c).after 2 t = outsAt4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

abbrev ms4_0 (t : Fin cfg4.N) : Memref sig .tc .vmem S2048x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x512 .f32 := win4_2.stage (cfg4.slots t 2)
abbrev hs4_2 (t : Fin cfg4.N) : (ms4_2 t).IsWhole := hstage4_2 ((cfg4.slots t 2).cast nbuf4_2)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.castSucc = PhiS4 V c t.val (Nat.le_of_lt t.isLt) from rfl,
    show (dat4 V c).Φ t.succ = PhiS4 V c (t.val + 1) t.isLt from rfl,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl]
  unfold PhiS4
  iintro ⟨⟨⟨⟨%d, %hd, HS⟩, Hr⟩, Hg⟩, Ho, ⟨%d0, H0⟩, ⟨%d1, H1⟩, ⟨%d2, H2⟩⟩
  have hA : poolAcc4 (iblk4 V c 0 t) (iblk4 V c 1 t) (if cond4_1 (grid4.coords t) then poolZero4 else d) = outsAt4 V c t.val t.isLt := by
    by_cases h0 : t.val % 8 = 0
    · rw [if_pos ((hcond4_1 t).mpr h0), outsAt4_first V c t h0]
    · rw [if_neg (mt (hcond4_1 t).mp h0), outsAt4_next V c t h0, hd (fun h => h0 (by rw [h]))]
  iapply (kernelRun4_A c (grid4.coords t) _ (hs4_0 t) _ (hs4_1 t) _ (hs4_2 t) scM4 (Memref.isWhole_whole _)
    (fun h1 h2 => absurd ((hcond4_2 t).mp h2) (by rw [(hcond4_1 t).mp h1]; decide)) (iblk4 V c 0 t) (iblk4 V c 1 t) ((dat4 V c).before 2 t d2) d Set.univ _)
  rw [hA]
  iframe H0 H1 H2 HS
  iintro ⟨H0, H1, H2, HS⟩
  iframe Ho H0 H1 Hr Hg
  isplitl [HS]
  · iexists outsAt4 V c t.val t.isLt; isplitr; · ipureintro; exact fun _ => rfl
    iexact HS
  by_cases h7 : t.val % 8 = 7
  · rw [if_pos ((hcond4_2 t).mpr h7), show (dat4 V c).leavesExact 2 t = owns (c : Thread nD τ) (ms4_2 t) fullShare (outsAt4 V c t.val t.isLt) from by
      unfold Dat.leavesExact; rw [Bool.eq_false_iff.mpr fun hb => (idleAt4_2 t).mp hb h7]; rfl]
    iexact H2
  · rw [if_neg (mt (hcond4_2 t).mp h7), Dat.leavesExact_idle (dat4 V c) 2 t ((idleAt4_2 t).mpr h7) (Bool.eq_false_iff.mpr (mt (flush4_2 t).mp h7))]
    iexists d2; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiA4_eq]; unfold PhiS4
  iintro ⟨⟨⟨%d, HS⟩, Hr⟩, Hg⟩
  iframe Hr Hg
  iexists d; isplitr; · ipureintro; exact fun h => absurd rfl h
  iexact HS

theorem hout4 (c : Dev nD) : (dat4 V c).Φ (Fin.last cfg4.N) ⊢ Pipeline.ΦA spec4 c := by
  rw [show (dat4 V c).Φ (Fin.last cfg4.N) = PhiS4 V c cfg4.N (Nat.le_refl _) from rfl, PhiA4_eq]; unfold PhiS4
  iintro ⟨⟨⟨%d, -, HS⟩, Hr⟩, Hg⟩
  iframe Hr Hg
  iexists d; iexact HS

end Cert.KernelIdeal.Hand

end
-- ==== Proof.KI.Mlp5.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S256x1024 := Rect.unit (s := S256x1024) ![0, 0] S256x1024.size inb_S256x1024_S256x1024_0_0
abbrev r5_w1 : Rect S1024x1024 := Rect.unit (s := S1024x1024) ![0, 0] S1024x1024.size inb_S1024x1024_S1024x1024_0_0
abbrev r5_b1 : Rect S1x1024 := Rect.unit (s := S1x1024) ![0, 0] S1x1024.size inb_S1x1024_S1x1024_0_0
abbrev r5_w2 : Rect S1024x4096 := Rect.unit (s := S1024x4096) ![0, 0] S1024x4096.size inb_S1024x4096_S1024x4096_0_0
abbrev r5_b2 : Rect S1x4096 := Rect.unit (s := S1x4096) ![0, 0] S1x4096.size inb_S1x4096_S1x4096_0_0
abbrev r5_out : Rect S256x4096 := Rect.unit (s := S256x4096) ![0, 0] S256x4096.size inb_S256x4096_S256x4096_0_0

def out5_5 (x : Vec F S256x1024 .bf16) (w1 : Vec F S1024x1024 .bf16) (b1 : Vec F S1x1024 .f32)
    (w2 : Vec F S1024x4096 .bf16) (b2 : Vec F S1x4096 .f32) : Vec F S256x4096 .f32 :=
  View.canon [⟨r5_out, k5_pay1 (View.ld x r5_x) (View.ld w1 r5_w1) (View.ld b1 r5_b1) (View.ld w2 r5_w2) (View.ld b2 r5_b2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

theorem hin5 (c : Dev nD) : Pipeline.ΦA spec5 c ⊢ (dat5 V c).Φ 0 := .rfl
theorem hout5 (c : Dev nD) : (dat5 V c).Φ (Fin.last cfg5.N) ⊢ Pipeline.ΦA spec5 c := .rfl
theorem q_eq5 (c : Dev nD) (w : Fin cfg5.W) : (dat5 V c).q w = fullShare := rfl
theorem owed_eq5 (c : Dev nD) (j : Fin (cfg5.N + 1)) : (dat5 V c).owed j = 0 := rfl

-- The body leaves every input block in place, so what it finds in an input buffer is what it leaves there.
private theorem before_in (c : Dev nD) (w : Fin cfg5.W) (hw : w ≠ 5) (t : Fin cfg5.N) (d) :
    (dat5 V c).before w t d = (dat5 V c).after w t := by
  fin_cases w <;> first
    | exact absurd rfl hw
    | exact ((dat5 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation5 (c : Dev nD) : BodyObligation (dat5 (F := F) V c) (defs₀ (F := F)) Variants.none () Set.univ := fun t => by
  rw [bigSep_W5, bigSep_W5]
  simp (disch := decide) only [before_in]
  rw [show (dat5 V c).Φ t.succ = (dat5 V c).Φ t.castSucc from rfl,
    show (dat5 V c).owesAt () t.succ = (dat5 V c).owesAt () t.castSucc from rfl,
    show (dat5 V c).after 5 t = out5_5 ((dat5 V c).after 0 t) ((dat5 V c).after 1 t) ((dat5 V c).after 2 t) ((dat5 V c).after 3 t)
      ((dat5 V c).after 4 t) from by dsimp only [dat5]]
  sl_whnfR [defs₀, Defs.onTc]
  simp only [cc5__mlp2_kernel_eq_skeleton]; unfold cc5__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r5_out, _⟩] S256x4096.size (by rfl) y

end Cert.KernelIdeal.Hand
-- ==== Proof.KI.Mlp6.lean ====
import proofs.«177075_j77953656422623_1_alg».proof.Proof.Gen.KernelIdeal.Launch
import proofs.«177075_j77953656422623_1_alg».proof.Proof.Gen.KernelIdeal.Skeleton
import proofs.«177075_j77953656422623_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S256x1024 := Rect.unit (s := S256x1024) ![0, 0] S256x1024.size inb_S256x1024_S256x1024_0_0
abbrev r6_w1 : Rect S1024x1024 := Rect.unit (s := S1024x1024) ![0, 0] S1024x1024.size inb_S1024x1024_S1024x1024_0_0
abbrev r6_b1 : Rect S1x1024 := Rect.unit (s := S1x1024) ![0, 0] S1x1024.size inb_S1x1024_S1x1024_0_0
abbrev r6_w2 : Rect S1024x4096 := Rect.unit (s := S1024x4096) ![0, 0] S1024x4096.size inb_S1024x4096_S1024x4096_0_0
abbrev r6_b2 : Rect S1x4096 := Rect.unit (s := S1x4096) ![0, 0] S1x4096.size inb_S1x4096_S1x4096_0_0
abbrev r6_out : Rect S256x4096 := Rect.unit (s := S256x4096) ![0, 0] S256x4096.size inb_S256x4096_S256x4096_0_0

def out6_5 (x : Vec F S256x1024 .bf16) (w1 : Vec F S1024x1024 .bf16) (b1 : Vec F S1x1024 .f32)
    (w2 : Vec F S1024x4096 .bf16) (b2 : Vec F S1x4096 .f32) : Vec F S256x4096 .f32 :=
  View.canon [⟨r6_out, k6_pay1 (View.ld x r6_x) (View.ld w1 r6_w1) (View.ld b1 r6_b1) (View.ld w2 r6_w2) (View.ld b2 r6_b2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

theorem hin6 (c : Dev nD) : Pipeline.ΦA spec6 c ⊢ (dat6 V c).Φ 0 := .rfl
theorem hout6 (c : Dev nD) : (dat6 V c).Φ (Fin.last cfg6.N) ⊢ Pipeline.ΦA spec6 c := .rfl
theorem q_eq6 (c : Dev nD) (w : Fin cfg6.W) : (dat6 V c).q w = fullShare := rfl
theorem owed_eq6 (c : Dev nD) (j : Fin (cfg6.N + 1)) : (dat6 V c).owed j = 0 := rfl

-- The body leaves every input block in place, so what it finds in an input buffer is what it leaves there.
private theorem before_in (c : Dev nD) (w : Fin cfg6.W) (hw : w ≠ 5) (t : Fin cfg6.N) (d) :
    (dat6 V c).before w t d = (dat6 V c).after w t := by
  fin_cases w <;> first
    | exact absurd rfl hw
    | exact ((dat6 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation6 (c : Dev nD) : BodyObligation (dat6 (F := F) V c) (defs₀ (F := F)) Variants.none () Set.univ := fun t => by
  rw [bigSep_W6, bigSep_W6]
  simp (disch := decide) only [before_in]
  rw [show (dat6 V c).Φ t.succ = (dat6 V c).Φ t.castSucc from rfl,
    show (dat6 V c).owesAt () t.succ = (dat6 V c).owesAt () t.castSucc from rfl,
    show (dat6 V c).after 5 t = out6_5 ((dat6 V c).after 0 t) ((dat6 V c).after 1 t) ((dat6 V c).after 2 t) ((dat6 V c).after 3 t)
      ((dat6 V c).after 4 t) from by dsimp only [dat6]]
  sl_whnfR [defs₀, Defs.onTc]
  simp only [cc6__mlp2_kernel_eq_skeleton]; unfold cc6__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r6_out, _⟩] S256x4096.size (by rfl) y

end Cert.KernelIdeal.Hand
-- ==== Proof.KI.Fold.lean ====
import proofs.«177075_j77953656422623_1_alg».proof.Proof.Gen.KernelIdeal.Regions
import proofs.«177075_j77953656422623_1_alg».proof.Proof.KI.Mlp0
import proofs.«177075_j77953656422623_1_alg».proof.Proof.KI.Mlp1
import proofs.«177075_j77953656422623_1_alg».proof.Proof.KI.Mlp2
import proofs.«177075_j77953656422623_1_alg».proof.Proof.KI.Pool3
import proofs.«177075_j77953656422623_1_alg».proof.Proof.KI.Pool4
import proofs.«177075_j77953656422623_1_alg».proof.Proof.KI.Mlp5
import proofs.«177075_j77953656422623_1_alg».proof.Proof.KI.Mlp6
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c => V0 m c

abbrev W1 : Dev nD → Valuation τ sig (Elt F) := fun c => StableHlo.after hostOps0 (W0 m c)

def W2 (c : Dev nD) : Valuation τ sig (Elt F) :=
  Function.update (W1 m c) main_v15 ((dat0 (atTc (W1 m)) c).arrAt 5 cfg0.N)
abbrev W3 : Dev nD → Valuation τ sig (Elt F) := fun c => StableHlo.after hostOps1 (W2 m c)

def W4 (c : Dev nD) : Valuation τ sig (Elt F) :=
  Function.update (W3 m c) main_v18 ((dat1 (atTc (W3 m)) c).arrAt 5 cfg1.N)
abbrev W5 : Dev nD → Valuation τ sig (Elt F) := fun c => StableHlo.after hostOps2 (W4 m c)

def W6 (c : Dev nD) : Valuation τ sig (Elt F) :=
  Function.update (W5 m c) main_v21 ((dat2 (atTc (W5 m)) c).arrAt 5 cfg2.N)

def W7 (c : Dev nD) : Valuation τ sig (Elt F) :=
  Function.update (W6 m c) main_v22 ((dat3 (atTc (W6 m)) c).arrAt 2 cfg3.N)

def W8 (c : Dev nD) : Valuation τ sig (Elt F) :=
  Function.update (W7 m c) main_v23 ((dat4 (atTc (W7 m)) c).arrAt 2 cfg4.N)
abbrev W9 : Dev nD → Valuation τ sig (Elt F) := fun c => StableHlo.after hostOps5 (W8 m c)

def W10 (c : Dev nD) : Valuation τ sig (Elt F) :=
  Function.update (W9 m c) main_v30 ((dat5 (atTc (W9 m)) c).arrAt 5 cfg5.N)
abbrev W11 : Dev nD → Valuation τ sig (Elt F) := fun c => StableHlo.after hostOps6 (W10 m c)

def W12 (c : Dev nD) : Valuation τ sig (Elt F) :=
  Function.update (W11 m c) main_v33 ((dat6 (atTc (W11 m)) c).arrAt 5 cfg6.N)

def outs : Outs (F := F) := fun J r c =>
  match J with
  | 2 => W2 m c r | 4 => W4 m c r | 6 => W6 m c r | 7 => W7 m c r | 8 => W8 m c r | 10 => W10 m c r | 12 => W12 m c r
  | _ => W0 m c r

theorem V2_eq (c : Dev nD) : V2 m (outs m) c = W2 m c := by
  show Function.update (W1 m c) main_v15 (W2 m c main_v15) = W2 m c
  unfold W2; rw [Function.update_self]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v18 (W4 m c main_v18) = W4 m c
  rw [V3_eq]; unfold W4; rw [Function.update_self]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v21 (W6 m c main_v21) = W6 m c
  rw [V5_eq]; unfold W6; rw [Function.update_self]
theorem V7_eq (c : Dev nD) : V7 m (outs m) c = W7 m c := by
  show Function.update (V6 m (outs m) c) main_v22 (W7 m c main_v22) = W7 m c
  rw [V6_eq]; unfold W7; rw [Function.update_self]
theorem V8_eq (c : Dev nD) : V8 m (outs m) c = W8 m c := by
  show Function.update (V7 m (outs m) c) main_v23 (W8 m c main_v23) = W8 m c
  rw [V7_eq]; unfold W8; rw [Function.update_self]
theorem V9_eq (c : Dev nD) : V9 m (outs m) c = W9 m c := by
  show StableHlo.after hostOps5 (V8 m (outs m) c) = _; rw [V8_eq]
theorem V10_eq (c : Dev nD) : V10 m (outs m) c = W10 m c := by
  show Function.update (V9 m (outs m) c) main_v30 (W10 m c main_v30) = W10 m c
  rw [V9_eq]; unfold W10; rw [Function.update_self]
theorem V11_eq (c : Dev nD) : V11 m (outs m) c = W11 m c := by
  show StableHlo.after hostOps6 (V10 m (outs m) c) = _; rw [V10_eq]
theorem V12_eq (c : Dev nD) : V12 m (outs m) c = W12 m c := by
  show Function.update (V11 m (outs m) c) main_v33 (W12 m c main_v33) = W12 m c
  rw [V11_eq]; unfold W12; rw [Function.update_self]

def pdats : (p : Fin 7) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W6 m)) c
  | ⟨4, _⟩ => fun c => dat4 (atTc (W7 m)) c
  | ⟨5, _⟩ => fun c => dat5 (atTc (W9 m)) c
  | ⟨6, _⟩ => fun c => dat6 (atTc (W11 m)) c

abbrev 𝒱₀ : Variants := Variants.none

abbrev L : GSem nD τ sig → Finset Unit := fun _ => ∅
abbrev lv : GSem nD τ sig → Unit → ℕ := fun _ _ => 0

abbrev R (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.Hand

end
-- ==== Proof.KI.Region.lean ====
import proofs.«177075_j77953656422623_1_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
-- a region whose windows are all inputs but one: entered at `Wa`, left at `Wa` with the output array overwritten
def regOf (p : Fin 7) (launch : Pipeline.LaunchFacts (nD := nD) (τ := τ) cfgs p)
    (Wa Wb : Dev nD → Valuation τ sig (Elt F)) (wo : Fin (cfgs p).W)
    (hWb : ∀ c, Wb c = Function.update (Wa c) (Pipeline.arrRef (cfgs p).spec wo) ((pdats m p c).arrAt wo (cfgs p).N))
    (hins : ∀ w, w ≠ wo → ((cfgs p).win w).isOut = false ∧ Pipeline.arrRef (cfgs p).spec w ≠ Pipeline.arrRef (cfgs p).spec wo)
    (hbody : ∀ c, BodyObligation (pdats m p c) (defs₀ (F := F)) Variants.none () Set.univ)
    (howed : ∀ c j, (pdats m p c).owed j = 0) (hrec : ∀ c, (pdats m p c).recorded 0 = Set.univ)
    (hq : ∀ c w, (pdats m p c).q w = fullShare)
    (hA : ∀ c w, (pdats m p c).A w = atTc Wa c (Pipeline.arrRef (cfgs p).spec w))
    (hΦin : ∀ c, Pipeline.ΦA (cfgs p).spec c ⊢ (pdats m p c).Φ 0)
    (hΦout : ∀ c, (pdats m p c).Φ (Fin.last (cfgs p).N) ⊢ Pipeline.ΦA (cfgs p).spec c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Wa c)
  hentry c := by
    rw [Pipeline.ownSems0_none]
    have hsplit := Pipeline.arrays_of_unscopedBufs (p := p) (pcfgs (F := F)) adm (pdats m) launch.win launch.arr_whole c
      ((pdats m p c).share_full (hq c)) (atTc Wa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c ▸ Set.mem_univ _)
      iexact HO
    isplitl [Hp]; · iexact Hp
    iexact Hrest
  hin c := by
    iintro ⟨Hp, -, Hr⟩
    iapply (hΦin c)
    unfold Pipeline.ΦA
    isplitl [Hr]; · iexact Hr
    iexact Hp
  hout c := by
    rw [Pipeline.ownSems0_none]
    have hgive := hΦout c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Wa c) (atTc Wb c) ((pdats m p c).arrAt · (cfgs p).N)
      (fun w => by
        show _ = Wb c (Pipeline.arrRef (cfgs p).spec w)
        rw [hWb c]
        by_cases hw : w = wo
        · subst hw; rw [Function.update_self]
        · rw [Function.update_of_ne (StableHlo.devRef_ne_of_ne (hins w hw).2)]
          exact ((pdats m p c).arrAt_in w (hins w hw).1 _).trans (hA c w))
      (fun b hb => by
        show Wb c b = Wa c b
        rw [hWb c]
        exact Function.update_of_ne (StableHlo.devRef_ne_of_ne fun e =>
          hb (Finset.mem_image.mpr ⟨wo, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m) () defs₀ 𝒱₀ L lv (0 : Fin 7) :=
  regOf m 0 launch0 (W1 m) (W2 m) 5 (fun _ => rfl) (by decide) (body_obligation0 _) (owed_eq0 _) (fun _ => rfl)
    (q_eq0 _) (A_eq0 _) (hin0 _) (hout0 _)

set_option backward.isDefEq.respectTransparency.types false in
def reg1 : Pipeline.RegionSeg (pcfgs (F := F)) adm (pdats m) () defs₀ 𝒱₀ L lv (1 : Fin 7) :=
  regOf m 1 launch1 (W3 m) (W4 m) 5 (fun _ => rfl) (by decide) (body_obligation1 _) (owed_eq1 _) (fun _ => rfl)
    (q_eq1 _) (A_eq1 _) (hin1 _) (hout1 _)

set_option backward.isDefEq.respectTransparency.types false in
def reg2 : Pipeline.RegionSeg (pcfgs (F := F)) adm (pdats m) () defs₀ 𝒱₀ L lv (2 : Fin 7) :=
  regOf m 2 launch2 (W5 m) (W6 m) 5 (fun _ => rfl) (by decide) (body_obligation2 _) (owed_eq2 _) (fun _ => rfl)
    (q_eq2 _) (A_eq2 _) (hin2 _) (hout2 _)

set_option backward.isDefEq.respectTransparency.types false in
def reg3 : Pipeline.RegionSeg (pcfgs (F := F)) adm (pdats m) () defs₀ 𝒱₀ L lv (3 : Fin 7) :=
  regOf m 3 launch3 (W6 m) (W7 m) 2 (fun _ => rfl) (by decide) (body_obligation3 _) (owed_eq3 _) (fun _ => rfl)
    (q_eq3 _) (A_eq3 _) (hin3 _) (hout3 _)

set_option backward.isDefEq.respectTransparency.types false in
def reg4 : Pipeline.RegionSeg (pcfgs (F := F)) adm (pdats m) () defs₀ 𝒱₀ L lv (4 : Fin 7) :=
  regOf m 4 launch4 (W7 m) (W8 m) 2 (fun _ => rfl) (by decide) (body_obligation4 _) (owed_eq4 _) (fun _ => rfl)
    (q_eq4 _) (A_eq4 _) (hin4 _) (hout4 _)

set_option backward.isDefEq.respectTransparency.types false in
def reg5 : Pipeline.RegionSeg (pcfgs (F := F)) adm (pdats m) () defs₀ 𝒱₀ L lv (5 : Fin 7) :=
  regOf m 5 launch5 (W9 m) (W10 m) 5 (fun _ => rfl) (by decide) (body_obligation5 _) (owed_eq5 _) (fun _ => rfl)
    (q_eq5 _) (A_eq5 _) (hin5 _) (hout5 _)

set_option backward.isDefEq.respectTransparency.types false in
def reg6 : Pipeline.RegionSeg (pcfgs (F := F)) adm (pdats m) () defs₀ 𝒱₀ L lv (6 : Fin 7) :=
  regOf m 6 launch6 (W11 m) (W12 m) 5 (fun _ => rfl) (by decide) (body_obligation6 _) (owed_eq6 _) (fun _ => rfl)
    (q_eq6 _) (A_eq6 _) (hin6 _) (hout6 _)

end Cert.KernelIdeal.Hand

end
-- ==== Proof.KI.Run.lean ====
import proofs.«177075_j77953656422623_1_alg».proof.Proof.KI.Region

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev E : Fin 8 → Dev nD → sProp 𝕄 := fun _ c => R c

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : E (F := F) 7 c ⊢ (iprop(∃ W, owes (c : Thread nD τ) (0 : CellTallies nD τ sig Unit) W) : sProp 𝕄) := by
  iintro ⟨-, HO⟩; iexact HO

-- two valuations that are equal hold the same buffers
theorem heq {c : Dev nD} {V W : Valuation τ sig (Elt F)} (h : V = W) :
    iprop(StableHlo.held (c : Thread nD τ) (Pipeline.ucRefs τ sig) V ∗ R c) ⊢ iprop(StableHlo.held (c : Thread nD τ) (Pipeline.ucRefs τ sig) W ∗ R c) :=
  h ▸ .rfl

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_cond m emb₁ () 𝒱₀ L lv (fun _ _ => rfl) ρ (outs m) (pdats m) (0 : Dev nD → CellTallies nD τ sig Unit) (fun _ => (BI.emp : sProp 𝕄)) u₀ hu₀
    (E (F := F)) (hE0 ρ) hE7
    (R0 := reg0 m) (hpre0 := fun _ => .rfl) (hpost0 := fun c => heq (V2_eq m c).symm)
    (R1 := reg1 m) (hpre1 := fun c => heq (V3_eq m c)) (hpost1 := fun c => heq (V4_eq m c).symm)
    (R2 := reg2 m) (hpre2 := fun c => heq (V5_eq m c)) (hpost2 := fun c => heq (V6_eq m c).symm)
    (R3 := reg3 m) (hpre3 := fun c => heq (V6_eq m c)) (hpost3 := fun c => heq (V7_eq m c).symm)
    (R4 := reg4 m) (hpre4 := fun c => heq (V7_eq m c)) (hpost4 := fun c => heq (V8_eq m c).symm)
    (R5 := reg5 m) (hpre5 := fun c => heq (V9_eq m c)) (hpost5 := fun c => heq (V10_eq m c).symm)
    (R6 := reg6 m) (hpre6 := fun c => heq (V11_eq m c)) (hpost6 := fun c => heq (V12_eq m c).symm)

end Cert.KernelIdeal.Hand

end
-- ==== Proof.KI.RunAll.lean ====
import proofs.«177075_j77953656422623_1_alg».proof.Proof.KI.Run
import proofs.«177075_j77953656422623_1_alg».proof.Proof.KI.Launch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the same run as `frame`, read back at every buffer that is no kernel's scratch
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W12 m c b) :=
  (θ_run defs _ _).mono (fun r h c b hb => (h c b hb).trans (congrFun (V12_eq m c) b))
    (run_cond m emb₁ () 𝒱₀ L lv (fun _ _ => rfl) ρ (outs m) (pdats m) (0 : Dev nD → CellTallies nD τ sig Unit) (fun _ => (BI.emp : sProp 𝕄)) u₀ hu₀
      (E (F := F)) (hE0 ρ) hE7
      (R0 := reg0 m) (hpre0 := fun _ => .rfl) (hpost0 := fun c => heq (V2_eq m c).symm)
    (R1 := reg1 m) (hpre1 := fun c => heq (V3_eq m c)) (hpost1 := fun c => heq (V4_eq m c).symm)
    (R2 := reg2 m) (hpre2 := fun c => heq (V5_eq m c)) (hpost2 := fun c => heq (V6_eq m c).symm)
    (R3 := reg3 m) (hpre3 := fun c => heq (V6_eq m c)) (hpost3 := fun c => heq (V7_eq m c).symm)
    (R4 := reg4 m) (hpre4 := fun c => heq (V7_eq m c)) (hpost4 := fun c => heq (V8_eq m c).symm)
    (R5 := reg5 m) (hpre5 := fun c => heq (V9_eq m c)) (hpost5 := fun c => heq (V10_eq m c).symm)
    (R6 := reg6 m) (hpre6 := fun c => heq (V11_eq m c)) (hpost6 := fun c => heq (V12_eq m c).symm))

end Cert.KernelIdeal.Hand

end
-- ==== Proof.K.Mlp0.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x4096 := Rect.unit (s := S512x4096) ![0, 0] S512x4096.size inb_S512x4096_S512x4096_0_0
abbrev r0_w1 : Rect S4096x1024 := Rect.unit (s := S4096x1024) ![0, 0] S4096x1024.size inb_S4096x1024_S4096x1024_0_0
abbrev r0_b1 : Rect S1x1024 := Rect.unit (s := S1x1024) ![0, 0] S1x1024.size inb_S1x1024_S1x1024_0_0
abbrev r0_w2 : Rect S1024x512 := Rect.unit (s := S1024x512) ![0, 0] S1024x512.size inb_S1024x512_S1024x512_0_0
abbrev r0_b2 : Rect S1x512 := Rect.unit (s := S1x512) ![0, 0] S1x512.size inb_S1x512_S1x512_0_0
abbrev r0_out : Rect S512x512 := Rect.unit (s := S512x512) ![0, 0] S512x512.size inb_S512x512_S512x512_0_0

def out0_5 (x : Vec F S512x4096 .bf16) (w1 : Vec F S4096x1024 .bf16) (b1 : Vec F S1x1024 .f32)
    (w2 : Vec F S1024x512 .bf16) (b2 : Vec F S1x512 .f32) : Vec F S512x512 .f32 :=
  View.canon [⟨r0_out, k0_pay1 (View.ld x r0_x) (View.ld w1 r0_w1) (View.ld b1 r0_b1) (View.ld w2 r0_w2) (View.ld b2 r0_b2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

theorem hin0 (c : Dev nD) : Pipeline.ΦA spec0 c ⊢ (dat0 V c).Φ 0 := .rfl
theorem hout0 (c : Dev nD) : (dat0 V c).Φ (Fin.last cfg0.N) ⊢ Pipeline.ΦA spec0 c := .rfl
theorem q_eq0 (c : Dev nD) (w : Fin cfg0.W) : (dat0 V c).q w = fullShare := rfl
theorem owed_eq0 (c : Dev nD) (j : Fin (cfg0.N + 1)) : (dat0 V c).owed j = 0 := rfl

-- The body leaves every input block in place, so what it finds in an input buffer is what it leaves there.
private theorem before_in (c : Dev nD) (w : Fin cfg0.W) (hw : w ≠ 5) (t : Fin cfg0.N) (d) :
    (dat0 V c).before w t d = (dat0 V c).after w t := by
  fin_cases w <;> first
    | exact absurd rfl hw
    | exact ((dat0 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation0 (c : Dev nD) : BodyObligation (dat0 (F := F) V c) (defs₀ (F := F)) Variants.none () Set.univ := fun t => by
  rw [bigSep_W0, bigSep_W0]
  simp (disch := decide) only [before_in]
  rw [show (dat0 V c).Φ t.succ = (dat0 V c).Φ t.castSucc from rfl,
    show (dat0 V c).owesAt () t.succ = (dat0 V c).owesAt () t.castSucc from rfl,
    show (dat0 V c).after 5 t = out0_5 ((dat0 V c).after 0 t) ((dat0 V c).after 1 t) ((dat0 V c).after 2 t) ((dat0 V c).after 3 t)
      ((dat0 V c).after 4 t) from by dsimp only [dat0]]
  sl_whnfR [defs₀, Defs.onTc]
  simp only [cc0__mlp2_kernel_eq_skeleton]; unfold cc0__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r0_out, _⟩] S512x512.size (by rfl) y

end Cert.Kernel.Hand
-- ==== Proof.K.Mlp1.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S512x4096 := Rect.unit (s := S512x4096) ![0, 0] S512x4096.size inb_S512x4096_S512x4096_0_0
abbrev r1_w1 : Rect S4096x1024 := Rect.unit (s := S4096x1024) ![0, 0] S4096x1024.size inb_S4096x1024_S4096x1024_0_0
abbrev r1_b1 : Rect S1x1024 := Rect.unit (s := S1x1024) ![0, 0] S1x1024.size inb_S1x1024_S1x1024_0_0
abbrev r1_w2 : Rect S1024x512 := Rect.unit (s := S1024x512) ![0, 0] S1024x512.size inb_S1024x512_S1024x512_0_0
abbrev r1_b2 : Rect S1x512 := Rect.unit (s := S1x512) ![0, 0] S1x512.size inb_S1x512_S1x512_0_0
abbrev r1_out : Rect S512x512 := Rect.unit (s := S512x512) ![0, 0] S512x512.size inb_S512x512_S512x512_0_0

def out1_5 (x : Vec F S512x4096 .bf16) (w1 : Vec F S4096x1024 .bf16) (b1 : Vec F S1x1024 .f32)
    (w2 : Vec F S1024x512 .bf16) (b2 : Vec F S1x512 .f32) : Vec F S512x512 .f32 :=
  View.canon [⟨r1_out, k1_pay1 (View.ld x r1_x) (View.ld w1 r1_w1) (View.ld b1 r1_b1) (View.ld w2 r1_w2) (View.ld b2 r1_b2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem hin1 (c : Dev nD) : Pipeline.ΦA spec1 c ⊢ (dat1 V c).Φ 0 := .rfl
theorem hout1 (c : Dev nD) : (dat1 V c).Φ (Fin.last cfg1.N) ⊢ Pipeline.ΦA spec1 c := .rfl
theorem q_eq1 (c : Dev nD) (w : Fin cfg1.W) : (dat1 V c).q w = fullShare := rfl
theorem owed_eq1 (c : Dev nD) (j : Fin (cfg1.N + 1)) : (dat1 V c).owed j = 0 := rfl

-- The body leaves every input block in place, so what it finds in an input buffer is what it leaves there.
private theorem before_in (c : Dev nD) (w : Fin cfg1.W) (hw : w ≠ 5) (t : Fin cfg1.N) (d) :
    (dat1 V c).before w t d = (dat1 V c).after w t := by
  fin_cases w <;> first
    | exact absurd rfl hw
    | exact ((dat1 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation1 (c : Dev nD) : BodyObligation (dat1 (F := F) V c) (defs₀ (F := F)) Variants.none () Set.univ := fun t => by
  rw [bigSep_W1, bigSep_W1]
  simp (disch := decide) only [before_in]
  rw [show (dat1 V c).Φ t.succ = (dat1 V c).Φ t.castSucc from rfl,
    show (dat1 V c).owesAt () t.succ = (dat1 V c).owesAt () t.castSucc from rfl,
    show (dat1 V c).after 5 t = out1_5 ((dat1 V c).after 0 t) ((dat1 V c).after 1 t) ((dat1 V c).after 2 t) ((dat1 V c).after 3 t)
      ((dat1 V c).after 4 t) from by dsimp only [dat1]]
  sl_whnfR [defs₀, Defs.onTc]
  simp only [cc1__mlp2_kernel_eq_skeleton]; unfold cc1__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r1_out, _⟩] S512x512.size (by rfl) y

end Cert.Kernel.Hand
-- ==== Proof.K.Mlp2.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x4096 := Rect.unit (s := S512x4096) ![0, 0] S512x4096.size inb_S512x4096_S512x4096_0_0
abbrev r2_w1 : Rect S4096x1024 := Rect.unit (s := S4096x1024) ![0, 0] S4096x1024.size inb_S4096x1024_S4096x1024_0_0
abbrev r2_b1 : Rect S1x1024 := Rect.unit (s := S1x1024) ![0, 0] S1x1024.size inb_S1x1024_S1x1024_0_0
abbrev r2_w2 : Rect S1024x512 := Rect.unit (s := S1024x512) ![0, 0] S1024x512.size inb_S1024x512_S1024x512_0_0
abbrev r2_b2 : Rect S1x512 := Rect.unit (s := S1x512) ![0, 0] S1x512.size inb_S1x512_S1x512_0_0
abbrev r2_out : Rect S512x512 := Rect.unit (s := S512x512) ![0, 0] S512x512.size inb_S512x512_S512x512_0_0

def out2_5 (x : Vec F S512x4096 .bf16) (w1 : Vec F S4096x1024 .bf16) (b1 : Vec F S1x1024 .f32)
    (w2 : Vec F S1024x512 .bf16) (b2 : Vec F S1x512 .f32) : Vec F S512x512 .f32 :=
  View.canon [⟨r2_out, k2_pay1 (View.ld x r2_x) (View.ld w1 r2_w1) (View.ld b1 r2_b1) (View.ld w2 r2_w2) (View.ld b2 r2_b2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

theorem hin2 (c : Dev nD) : Pipeline.ΦA spec2 c ⊢ (dat2 V c).Φ 0 := .rfl
theorem hout2 (c : Dev nD) : (dat2 V c).Φ (Fin.last cfg2.N) ⊢ Pipeline.ΦA spec2 c := .rfl
theorem q_eq2 (c : Dev nD) (w : Fin cfg2.W) : (dat2 V c).q w = fullShare := rfl
theorem owed_eq2 (c : Dev nD) (j : Fin (cfg2.N + 1)) : (dat2 V c).owed j = 0 := rfl

-- The body leaves every input block in place, so what it finds in an input buffer is what it leaves there.
private theorem before_in (c : Dev nD) (w : Fin cfg2.W) (hw : w ≠ 5) (t : Fin cfg2.N) (d) :
    (dat2 V c).before w t d = (dat2 V c).after w t := by
  fin_cases w <;> first
    | exact absurd rfl hw
    | exact ((dat2 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation2 (c : Dev nD) : BodyObligation (dat2 (F := F) V c) (defs₀ (F := F)) Variants.none () Set.univ := fun t => by
  rw [bigSep_W2, bigSep_W2]
  simp (disch := decide) only [before_in]
  rw [show (dat2 V c).Φ t.succ = (dat2 V c).Φ t.castSucc from rfl,
    show (dat2 V c).owesAt () t.succ = (dat2 V c).owesAt () t.castSucc from rfl,
    show (dat2 V c).after 5 t = out2_5 ((dat2 V c).after 0 t) ((dat2 V c).after 1 t) ((dat2 V c).after 2 t) ((dat2 V c).after 3 t)
      ((dat2 V c).after 4 t) from by dsimp only [dat2]]
  sl_whnfR [defs₀, Defs.onTc]
  simp only [cc2__mlp2_kernel_eq_skeleton]; unfold cc2__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r2_out, _⟩] S512x512.size (by rfl) y

end Cert.Kernel.Hand
-- ==== Proof.K.Pool3.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_1 (i : grid3.Coords) : Prop :=
  (Scalar.cmpi .ne (Scalar.extui (Scalar.cmpi .eq (BitVec.ofNat 32 (i 1).val) 0#32)) 0#32) = 1#1
-- Point t of the grid has reduction coordinate t % 8: the first condition holds where it is 0,
theorem hcond3_1 : ∀ t : Fin grid3.N, cond3_1 (grid3.coords t) ↔ t.val % 8 = 0 := by decide +kernel

abbrev cond3_2 (i : grid3.Coords) : Prop := k3_cond2 i = 1#1
-- the second where it is 7.
theorem hcond3_2 : ∀ t : Fin grid3.N, cond3_2 (grid3.coords t) ↔ t.val % 8 = 7 := by decide +kernel

theorem idleAt3_2 : ∀ t : Fin grid3.N, cfg3.idle 2 (grid3.coords t) = true ↔ ¬t.val % 8 = 7 := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S512x512 .f32 := Memref.whole cc3_scratch0

abbrev rectO3 : Rect S512x512 := Rect.unit (s := S512x512) ![0, 0] S512x512.size inb_S512x512_S512x512_0_0
abbrev rectI3 : Rect S2048x512 := Rect.unit (s := S2048x512) ![0, 0] S2048x512.size inb_S2048x512_S2048x512_0_0

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

@[irreducible] def poolZero3 : Vec F S512x512 .f32 := View.canon [⟨rectO3, k3_pay1 (F := F)⟩]

@[irreducible] def poolAcc3 (a : Vec F S2048x512 .bf16) (b : Vec F S2048x512 .f32) (s : Vec F S512x512 .f32) : Vec F S512x512 .f32 :=
  View.canon [⟨rectO3, k3_pay2 (View.ld a rectI3) (View.ld b rectI3) (View.ld s rectO3)⟩]

theorem mem_rectO3 (y : S512x512.Idx) : y ∈ rectO3.set :=
  Rect.mem_set_unit.mpr fun a => by
    have h0 : (![0, 0] : Fin 2 → ℕ) a = 0 := by fin_cases a <;> rfl
    have := (y a).isLt
    exact ⟨by rw [h0]; exact Nat.zero_le _, by rw [h0, Nat.zero_add]; exact this⟩

-- A whole-tile store hides every earlier one,
theorem canon_head3 (w : rectO3.shape.Idx → Elt F .f32) (L : List (View.Piece (Elt F) S512x512 .f32)) :
    View.canon (⟨rectO3, w⟩ :: L) = View.canon [⟨rectO3, w⟩] := by
  funext y
  obtain ⟨x, rfl⟩ : ∃ x, rectO3.emb x = y := rectO3.exists_idx_of_mem (mem_rectO3 y)
  rw [View.canon_cons_emb, View.canon_cons_emb]

theorem canon_ld3 (X : Vec F S512x512 .f32) : View.canon [⟨rectO3, View.ld X rectO3⟩] = X := by
  funext y
  obtain ⟨x, rfl⟩ : ∃ x, rectO3.emb x = y := rectO3.exists_idx_of_mem (mem_rectO3 y)
  rw [View.canon_cons_emb]; rfl

-- and covers the tile.
theorem cover_one3 (w : rectO3.shape.Idx → Elt F .f32) (L : List (View.Piece (Elt F) S512x512 .f32)) :
    ∀ y, ∃ p ∈ ((⟨rectO3, w⟩ : View.Piece (Elt F) S512x512 .f32) :: L), y ∈ p.1.set :=
  fun y => ⟨⟨rectO3, w⟩, List.mem_cons_self, mem_rectO3 y⟩

theorem readAt_unread3 {sp : Space} {s : Shape} {e : EltTy} (m : Memref sig .tc sp s e) (h : m.IsWhole) (X : s.Idx → Elt F e) (r : Rect s) :
    m.view.readAt (Elt F) r.toLoadRect (h.unread X) = View.ld X r :=
  funext fun _ => congrFun (h.read_unread X) _

-- What is read back after whole-tile stores is the last one's payload,
theorem read_step3 {sp : Space} (m : Memref sig .tc sp S512x512 .f32) (f : m.view.ty.Contents (Elt F)) (w : rectO3.shape.Idx → Elt F .f32)
    (L : List (View.Piece (Elt F) S512x512 .f32)) :
    m.view.read (Elt F) (m.view.writes (Elt F) f (⟨rectO3, w⟩ :: L)) = View.canon [⟨rectO3, w⟩] := by
  rw [View.read_writes_eq_canon _ _ _ (cover_one3 _ _), canon_head3]

-- and a tile stored whole as it was just loaded is itself.
theorem read_emit3 {sp : Space} (m : Memref sig .tc sp S512x512 .f32) (w : rectO3.shape.Idx → Elt F .f32) :
    View.canon [(⟨rectO3, m.view.readCov [⟨rectO3, w⟩] rectO3.toLoadRect⟩ : View.Piece (Elt F) S512x512 .f32)] = View.canon [⟨rectO3, w⟩] := by
  rw [View.readCov_eq_canon_ld _ _ _ (cover_one3 _ _), canon_ld3]

-- One step's store, the accumulator having been loaded as S, is the closed form.
theorem canon_step3 (aM : Memref sig .tc .vmem S2048x512 .bf16) (haM : aM.IsWhole) (bM : Memref sig .tc .vmem S2048x512 .f32) (hbM : bM.IsWhole)
    (x0 : Vec F S2048x512 .bf16) (x1 : Vec F S2048x512 .f32) (S xs : Vec F S512x512 .f32) (hS : S = View.ld xs rectO3) :
    View.canon [(⟨rectO3, k3_pay2 (aM.view.readAt (Elt F) rectI3.toLoadRect (haM.unread x0)) (bM.view.readAt (Elt F) rectI3.toLoadRect (hbM.unread x1)) S⟩
      : View.Piece (Elt F) S512x512 .f32)] = poolAcc3 x0 x1 xs := by
  subst hS; unfold poolAcc3
  rw [readAt_unread3, readAt_unread3]

set_option maxHeartbeats 1000000 in
-- The body's run: the accumulator restarts from zero where the first condition holds, takes one step, and is copied out where the second holds.
theorem kernelRun3_A (c : Dev nD) (i : grid3.Coords) (aM : Memref sig .tc .vmem S2048x512 .bf16) (haM : aM.IsWhole) (bM : Memref sig .tc .vmem S2048x512 .f32) (hbM : bM.IsWhole) (oM : Memref sig .tc .vmem S512x512 .f32) (hoM : oM.IsWhole) (sM : Memref sig .tc .vmem S512x512 .f32) (hsM : sM.IsWhole) (h12 : cond3_1 i → ¬cond3_2 i)
    (x0 : Vec F S2048x512 .bf16) (x1 : Vec F S2048x512 .f32) (xo xs : Vec F S512x512 .f32) (E : Set ℕ) (K : PUnit → sProp 𝕄) :
    iprop(owns (c : Thread nD τ) aM fullShare x0 ∗ owns (c : Thread nD τ) bM fullShare x1 ∗ owns (c : Thread nD τ) oM fullShare xo ∗ owns (c : Thread nD τ) sM fullShare xs
        ∗ (iprop(owns (c : Thread nD τ) aM fullShare x0 ∗ owns (c : Thread nD τ) bM fullShare x1
            ∗ owns (c : Thread nD τ) oM fullShare (if cond3_2 i then poolAcc3 x0 x1 (if cond3_1 i then poolZero3 else xs) else xo)
            ∗ owns (c : Thread nD τ) sM fullShare (poolAcc3 x0 x1 (if cond3_1 i then poolZero3 else xs))) -∗ K ⟨⟩))
      ⊢ wp frame (wpE (defs₀ (F := F)) Variants.none c none) E (cc3__pool_kernel i aM haM bM hbM oM hoM sM hsM) K := by
  simp only [cc3__pool_kernel_eq_skeleton]; unfold cc3__pool_kernel_skel owns
  by_cases hc1 : cond3_1 i <;> by_cases hc2 : cond3_2 i
  · exact absurd hc2 (h12 hc1)
  all_goals
    first | rw [if_pos hc1] | rw [if_neg hc1]
    first | rw [if_pos hc2] | rw [if_neg hc2]
    iintro ⟨⟨%f0, %hf0, H0⟩, ⟨%f1, %hf1, H1⟩, ⟨%f2, %hf2, H2⟩, ⟨%fs, %hfs, HS⟩, Hk⟩
    obtain rfl := haM.eq_unread hf0; obtain rfl := hbM.eq_unread hf1; obtain rfl := hsM.eq_unread hfs
    sl_exec (disch := first | exact hc1 | exact hc2)
    sl_step
    iapply Hk
    isplitl [H0]
    · iexists _; isplitr; · ipureintro; exact hf0
      iexact H0
    isplitl [H1]
    · iexists _; isplitr; · ipureintro; exact hf1
      iexact H1
    isplitl [H2]
    on_goal 2 => iexists _; isplitr; swap; · iexact HS
    on_goal 1 => iexists _; isplitr; swap; · iexact H2
    all_goals ipureintro
  · exact hf2
  · exact (read_step3 _ _ _ _).trans (canon_step3 aM haM bM hbM x0 x1 _ _ (by unfold poolZero3; exact View.readCov_eq_canon_ld _ _ _ (cover_one3 _ _)))
  · exact (read_step3 _ _ _ _).trans ((read_emit3 sM _).trans (canon_step3 aM haM bM hbM x0 x1 _ _ (readAt_unread3 sM hsM xs rectO3)))
  · exact (read_step3 _ _ _ _).trans (canon_step3 aM haM bM hbM x0 x1 _ _ (readAt_unread3 sM hsM xs rectO3))
  · exact hf2
  · exact (read_step3 _ _ _ _).trans (canon_step3 aM haM bM hbM x0 x1 _ _ (readAt_unread3 sM hsM xs rectO3))

def outsAt3 (c : Dev nD) : (n : ℕ) → n < cfg3.N → Vec F S512x512 .f32
  | 0, hn => poolAcc3 (iblk3 V c 0 ⟨0, hn⟩) (iblk3 V c 1 ⟨0, hn⟩) poolZero3
  | n + 1, hn => poolAcc3 (iblk3 V c 0 ⟨n + 1, hn⟩) (iblk3 V c 1 ⟨n + 1, hn⟩)
      (if (n + 1) % 8 = 0 then poolZero3 else outsAt3 c n (Nat.lt_of_succ_lt hn))

theorem outsAt3_first (c : Dev nD) (t : Fin cfg3.N) (h : t.val % 8 = 0) :
    outsAt3 V c t.val t.isLt = poolAcc3 (iblk3 V c 0 t) (iblk3 V c 1 t) poolZero3 := by
  obtain ⟨n, hn⟩ := t
  cases n with
  | zero => rfl
  | succ n => exact congrArg _ (if_pos h)

theorem outsAt3_next (c : Dev nD) (t : Fin cfg3.N) (h : ¬t.val % 8 = 0) :
    outsAt3 V c t.val t.isLt
      = poolAcc3 (iblk3 V c 0 t) (iblk3 V c 1 t) (outsAt3 V c (t.val - 1) (Nat.lt_of_le_of_lt (Nat.sub_le _ _) t.isLt)) := by
  obtain ⟨n, hn⟩ := t
  cases n with
  | zero => exact absurd (Nat.zero_mod _) h
  | succ n => exact congrArg _ (if_neg h)

-- Between points the accumulator holds what the point before left; before the first point, anything.
def PhiS3 (c : Dev nD) (n : ℕ) (hn : n ≤ cfg3.N) : sProp 𝕄 :=
  iprop(iprop((∃ d, ⌜∀ h : n ≠ 0, d = outsAt3 V c (n - 1) (by omega)⌝ ∗ owns (c : Thread nD τ) scM3 fullShare d)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outsAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (j : Fin (cfg3.N + 1)) : (dat3 V c).owed j = 0 := rfl

theorem after3_2 (c : Dev nD) (t : Fin cfg3.N) : (dat3 V c).after 2 t = outsAt3 V c t.val t.isLt := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

abbrev ms3_0 (t : Fin cfg3.N) : Memref sig .tc .vmem S2048x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.castSucc = PhiS3 V c t.val (Nat.le_of_lt t.isLt) from rfl,
    show (dat3 V c).Φ t.succ = PhiS3 V c (t.val + 1) t.isLt from rfl,
    show (dat3 V c).leavesExact 0 t = owns (c : Thread nD τ) (ms3_0 t) fullShare (iblk3 V c 0 t) from rfl,
    show (dat3 V c).leavesExact 1 t = owns (c : Thread nD τ) (ms3_1 t) fullShare (iblk3 V c 1 t) from rfl]
  unfold PhiS3
  iintro ⟨⟨⟨⟨%d, %hd, HS⟩, Hr⟩, Hg⟩, Ho, ⟨%d0, H0⟩, ⟨%d1, H1⟩, ⟨%d2, H2⟩⟩
  have hA : poolAcc3 (iblk3 V c 0 t) (iblk3 V c 1 t) (if cond3_1 (grid3.coords t) then poolZero3 else d) = outsAt3 V c t.val t.isLt := by
    by_cases h0 : t.val % 8 = 0
    · rw [if_pos ((hcond3_1 t).mpr h0), outsAt3_first V c t h0]
    · rw [if_neg (mt (hcond3_1 t).mp h0), outsAt3_next V c t h0, hd (fun h => h0 (by rw [h]))]
  iapply (kernelRun3_A c (grid3.coords t) _ (hs3_0 t) _ (hs3_1 t) _ (hs3_2 t) scM3 (Memref.isWhole_whole _)
    (fun h1 h2 => absurd ((hcond3_2 t).mp h2) (by rw [(hcond3_1 t).mp h1]; decide)) (iblk3 V c 0 t) (iblk3 V c 1 t) ((dat3 V c).before 2 t d2) d Set.univ _)
  rw [hA]
  iframe H0 H1 H2 HS
  iintro ⟨H0, H1, H2, HS⟩
  iframe Ho H0 H1 Hr Hg
  isplitl [HS]
  · iexists outsAt3 V c t.val t.isLt; isplitr; · ipureintro; exact fun _ => rfl
    iexact HS
  by_cases h7 : t.val % 8 = 7
  · rw [if_pos ((hcond3_2 t).mpr h7), show (dat3 V c).leavesExact 2 t = owns (c : Thread nD τ) (ms3_2 t) fullShare (outsAt3 V c t.val t.isLt) from by
      unfold Dat.leavesExact; rw [Bool.eq_false_iff.mpr fun hb => (idleAt3_2 t).mp hb h7]; rfl]
    iexact H2
  · rw [if_neg (mt (hcond3_2 t).mp h7), Dat.leavesExact_idle (dat3 V c) 2 t ((idleAt3_2 t).mpr h7) (Bool.eq_false_iff.mpr (mt (flush3_2 t).mp h7))]
    iexists d2; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiA3_eq]; unfold PhiS3
  iintro ⟨⟨⟨%d, HS⟩, Hr⟩, Hg⟩
  iframe Hr Hg
  iexists d; isplitr; · ipureintro; exact fun h => absurd rfl h
  iexact HS

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiA3_eq]; unfold PhiS3
  iintro ⟨⟨⟨%d, -, HS⟩, Hr⟩, Hg⟩
  iframe Hr Hg
  iexists d; iexact HS

end Cert.Kernel.Hand

end
-- ==== Proof.K.Pool4.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_1 (i : grid4.Coords) : Prop :=
  (Scalar.cmpi .ne (Scalar.extui (Scalar.cmpi .eq (BitVec.ofNat 32 (i 1).val) 0#32)) 0#32) = 1#1
-- Point t of the grid has reduction coordinate t % 8: the first condition holds where it is 0,
theorem hcond4_1 : ∀ t : Fin grid4.N, cond4_1 (grid4.coords t) ↔ t.val % 8 = 0 := by decide +kernel

abbrev cond4_2 (i : grid4.Coords) : Prop := k4_cond2 i = 1#1
-- the second where it is 7.
theorem hcond4_2 : ∀ t : Fin grid4.N, cond4_2 (grid4.coords t) ↔ t.val % 8 = 7 := by decide +kernel

theorem idleAt4_2 : ∀ t : Fin grid4.N, cfg4.idle 2 (grid4.coords t) = true ↔ ¬t.val % 8 = 7 := by decide +kernel

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S512x512 .f32 := Memref.whole cc4_scratch0

abbrev rectO4 : Rect S512x512 := Rect.unit (s := S512x512) ![0, 0] S512x512.size inb_S512x512_S512x512_0_0
abbrev rectI4 : Rect S2048x512 := Rect.unit (s := S2048x512) ![0, 0] S2048x512.size inb_S2048x512_S2048x512_0_0

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

@[irreducible] def poolZero4 : Vec F S512x512 .f32 := View.canon [⟨rectO4, k4_pay1 (F := F)⟩]

@[irreducible] def poolAcc4 (a : Vec F S2048x512 .bf16) (b : Vec F S2048x512 .f32) (s : Vec F S512x512 .f32) : Vec F S512x512 .f32 :=
  View.canon [⟨rectO4, k4_pay2 (View.ld a rectI4) (View.ld b rectI4) (View.ld s rectO4)⟩]

theorem mem_rectO4 (y : S512x512.Idx) : y ∈ rectO4.set :=
  Rect.mem_set_unit.mpr fun a => by
    have h0 : (![0, 0] : Fin 2 → ℕ) a = 0 := by fin_cases a <;> rfl
    have := (y a).isLt
    exact ⟨by rw [h0]; exact Nat.zero_le _, by rw [h0, Nat.zero_add]; exact this⟩

-- A whole-tile store hides every earlier one,
theorem canon_head4 (w : rectO4.shape.Idx → Elt F .f32) (L : List (View.Piece (Elt F) S512x512 .f32)) :
    View.canon (⟨rectO4, w⟩ :: L) = View.canon [⟨rectO4, w⟩] := by
  funext y
  obtain ⟨x, rfl⟩ : ∃ x, rectO4.emb x = y := rectO4.exists_idx_of_mem (mem_rectO4 y)
  rw [View.canon_cons_emb, View.canon_cons_emb]

theorem canon_ld4 (X : Vec F S512x512 .f32) : View.canon [⟨rectO4, View.ld X rectO4⟩] = X := by
  funext y
  obtain ⟨x, rfl⟩ : ∃ x, rectO4.emb x = y := rectO4.exists_idx_of_mem (mem_rectO4 y)
  rw [View.canon_cons_emb]; rfl

-- and covers the tile.
theorem cover_one4 (w : rectO4.shape.Idx → Elt F .f32) (L : List (View.Piece (Elt F) S512x512 .f32)) :
    ∀ y, ∃ p ∈ ((⟨rectO4, w⟩ : View.Piece (Elt F) S512x512 .f32) :: L), y ∈ p.1.set :=
  fun y => ⟨⟨rectO4, w⟩, List.mem_cons_self, mem_rectO4 y⟩

theorem readAt_unread4 {sp : Space} {s : Shape} {e : EltTy} (m : Memref sig .tc sp s e) (h : m.IsWhole) (X : s.Idx → Elt F e) (r : Rect s) :
    m.view.readAt (Elt F) r.toLoadRect (h.unread X) = View.ld X r :=
  funext fun _ => congrFun (h.read_unread X) _

-- What is read back after whole-tile stores is the last one's payload,
theorem read_step4 {sp : Space} (m : Memref sig .tc sp S512x512 .f32) (f : m.view.ty.Contents (Elt F)) (w : rectO4.shape.Idx → Elt F .f32)
    (L : List (View.Piece (Elt F) S512x512 .f32)) :
    m.view.read (Elt F) (m.view.writes (Elt F) f (⟨rectO4, w⟩ :: L)) = View.canon [⟨rectO4, w⟩] := by
  rw [View.read_writes_eq_canon _ _ _ (cover_one4 _ _), canon_head4]

-- and a tile stored whole as it was just loaded is itself.
theorem read_emit4 {sp : Space} (m : Memref sig .tc sp S512x512 .f32) (w : rectO4.shape.Idx → Elt F .f32) :
    View.canon [(⟨rectO4, m.view.readCov [⟨rectO4, w⟩] rectO4.toLoadRect⟩ : View.Piece (Elt F) S512x512 .f32)] = View.canon [⟨rectO4, w⟩] := by
  rw [View.readCov_eq_canon_ld _ _ _ (cover_one4 _ _), canon_ld4]

-- One step's store, the accumulator having been loaded as S, is the closed form.
theorem canon_step4 (aM : Memref sig .tc .vmem S2048x512 .bf16) (haM : aM.IsWhole) (bM : Memref sig .tc .vmem S2048x512 .f32) (hbM : bM.IsWhole)
    (x0 : Vec F S2048x512 .bf16) (x1 : Vec F S2048x512 .f32) (S xs : Vec F S512x512 .f32) (hS : S = View.ld xs rectO4) :
    View.canon [(⟨rectO4, k4_pay2 (aM.view.readAt (Elt F) rectI4.toLoadRect (haM.unread x0)) (bM.view.readAt (Elt F) rectI4.toLoadRect (hbM.unread x1)) S⟩
      : View.Piece (Elt F) S512x512 .f32)] = poolAcc4 x0 x1 xs := by
  subst hS; unfold poolAcc4
  rw [readAt_unread4, readAt_unread4]

set_option maxHeartbeats 1000000 in
-- The body's run: the accumulator restarts from zero where the first condition holds, takes one step, and is copied out where the second holds.
theorem kernelRun4_A (c : Dev nD) (i : grid4.Coords) (aM : Memref sig .tc .vmem S2048x512 .bf16) (haM : aM.IsWhole) (bM : Memref sig .tc .vmem S2048x512 .f32) (hbM : bM.IsWhole) (oM : Memref sig .tc .vmem S512x512 .f32) (hoM : oM.IsWhole) (sM : Memref sig .tc .vmem S512x512 .f32) (hsM : sM.IsWhole) (h12 : cond4_1 i → ¬cond4_2 i)
    (x0 : Vec F S2048x512 .bf16) (x1 : Vec F S2048x512 .f32) (xo xs : Vec F S512x512 .f32) (E : Set ℕ) (K : PUnit → sProp 𝕄) :
    iprop(owns (c : Thread nD τ) aM fullShare x0 ∗ owns (c : Thread nD τ) bM fullShare x1 ∗ owns (c : Thread nD τ) oM fullShare xo ∗ owns (c : Thread nD τ) sM fullShare xs
        ∗ (iprop(owns (c : Thread nD τ) aM fullShare x0 ∗ owns (c : Thread nD τ) bM fullShare x1
            ∗ owns (c : Thread nD τ) oM fullShare (if cond4_2 i then poolAcc4 x0 x1 (if cond4_1 i then poolZero4 else xs) else xo)
            ∗ owns (c : Thread nD τ) sM fullShare (poolAcc4 x0 x1 (if cond4_1 i then poolZero4 else xs))) -∗ K ⟨⟩))
      ⊢ wp frame (wpE (defs₀ (F := F)) Variants.none c none) E (cc4__pool_kernel i aM haM bM hbM oM hoM sM hsM) K := by
  simp only [cc4__pool_kernel_eq_skeleton]; unfold cc4__pool_kernel_skel owns
  by_cases hc1 : cond4_1 i <;> by_cases hc2 : cond4_2 i
  · exact absurd hc2 (h12 hc1)
  all_goals
    first | rw [if_pos hc1] | rw [if_neg hc1]
    first | rw [if_pos hc2] | rw [if_neg hc2]
    iintro ⟨⟨%f0, %hf0, H0⟩, ⟨%f1, %hf1, H1⟩, ⟨%f2, %hf2, H2⟩, ⟨%fs, %hfs, HS⟩, Hk⟩
    obtain rfl := haM.eq_unread hf0; obtain rfl := hbM.eq_unread hf1; obtain rfl := hsM.eq_unread hfs
    sl_exec (disch := first | exact hc1 | exact hc2)
    sl_step
    iapply Hk
    isplitl [H0]
    · iexists _; isplitr; · ipureintro; exact hf0
      iexact H0
    isplitl [H1]
    · iexists _; isplitr; · ipureintro; exact hf1
      iexact H1
    isplitl [H2]
    on_goal 2 => iexists _; isplitr; swap; · iexact HS
    on_goal 1 => iexists _; isplitr; swap; · iexact H2
    all_goals ipureintro
  · exact hf2
  · exact (read_step4 _ _ _ _).trans (canon_step4 aM haM bM hbM x0 x1 _ _ (by unfold poolZero4; exact View.readCov_eq_canon_ld _ _ _ (cover_one4 _ _)))
  · exact (read_step4 _ _ _ _).trans ((read_emit4 sM _).trans (canon_step4 aM haM bM hbM x0 x1 _ _ (readAt_unread4 sM hsM xs rectO4)))
  · exact (read_step4 _ _ _ _).trans (canon_step4 aM haM bM hbM x0 x1 _ _ (readAt_unread4 sM hsM xs rectO4))
  · exact hf2
  · exact (read_step4 _ _ _ _).trans (canon_step4 aM haM bM hbM x0 x1 _ _ (readAt_unread4 sM hsM xs rectO4))

def outsAt4 (c : Dev nD) : (n : ℕ) → n < cfg4.N → Vec F S512x512 .f32
  | 0, hn => poolAcc4 (iblk4 V c 0 ⟨0, hn⟩) (iblk4 V c 1 ⟨0, hn⟩) poolZero4
  | n + 1, hn => poolAcc4 (iblk4 V c 0 ⟨n + 1, hn⟩) (iblk4 V c 1 ⟨n + 1, hn⟩)
      (if (n + 1) % 8 = 0 then poolZero4 else outsAt4 c n (Nat.lt_of_succ_lt hn))

theorem outsAt4_first (c : Dev nD) (t : Fin cfg4.N) (h : t.val % 8 = 0) :
    outsAt4 V c t.val t.isLt = poolAcc4 (iblk4 V c 0 t) (iblk4 V c 1 t) poolZero4 := by
  obtain ⟨n, hn⟩ := t
  cases n with
  | zero => rfl
  | succ n => exact congrArg _ (if_pos h)

theorem outsAt4_next (c : Dev nD) (t : Fin cfg4.N) (h : ¬t.val % 8 = 0) :
    outsAt4 V c t.val t.isLt
      = poolAcc4 (iblk4 V c 0 t) (iblk4 V c 1 t) (outsAt4 V c (t.val - 1) (Nat.lt_of_le_of_lt (Nat.sub_le _ _) t.isLt)) := by
  obtain ⟨n, hn⟩ := t
  cases n with
  | zero => exact absurd (Nat.zero_mod _) h
  | succ n => exact congrArg _ (if_neg h)

-- Between points the accumulator holds what the point before left; before the first point, anything.
def PhiS4 (c : Dev nD) (n : ℕ) (hn : n ≤ cfg4.N) : sProp 𝕄 :=
  iprop(iprop((∃ d, ⌜∀ h : n ≠ 0, d = outsAt4 V c (n - 1) (by omega)⌝ ∗ owns (c : Thread nD τ) scM4 fullShare d)
      ∗ Pipeline.scopedRestBut (Ix := Unit) (Name := ℕ) (U := UR sig nD τ) (Lvl := ℕ) (Val := Elt F) spec4 c [cc4_scratch0]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outsAt4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (j : Fin (cfg4.N + 1)) : (dat4 V c).owed j = 0 := rfl

theorem after4_2 (c : Dev nD) (t : Fin cfg4.N) : (dat4 V c).after 2 t = outsAt4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

abbrev ms4_0 (t : Fin cfg4.N) : Memref sig .tc .vmem S2048x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x512 .f32 := win4_2.stage (cfg4.slots t 2)
abbrev hs4_2 (t : Fin cfg4.N) : (ms4_2 t).IsWhole := hstage4_2 ((cfg4.slots t 2).cast nbuf4_2)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.castSucc = PhiS4 V c t.val (Nat.le_of_lt t.isLt) from rfl,
    show (dat4 V c).Φ t.succ = PhiS4 V c (t.val + 1) t.isLt from rfl,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl]
  unfold PhiS4
  iintro ⟨⟨⟨⟨%d, %hd, HS⟩, Hr⟩, Hg⟩, Ho, ⟨%d0, H0⟩, ⟨%d1, H1⟩, ⟨%d2, H2⟩⟩
  have hA : poolAcc4 (iblk4 V c 0 t) (iblk4 V c 1 t) (if cond4_1 (grid4.coords t) then poolZero4 else d) = outsAt4 V c t.val t.isLt := by
    by_cases h0 : t.val % 8 = 0
    · rw [if_pos ((hcond4_1 t).mpr h0), outsAt4_first V c t h0]
    · rw [if_neg (mt (hcond4_1 t).mp h0), outsAt4_next V c t h0, hd (fun h => h0 (by rw [h]))]
  iapply (kernelRun4_A c (grid4.coords t) _ (hs4_0 t) _ (hs4_1 t) _ (hs4_2 t) scM4 (Memref.isWhole_whole _)
    (fun h1 h2 => absurd ((hcond4_2 t).mp h2) (by rw [(hcond4_1 t).mp h1]; decide)) (iblk4 V c 0 t) (iblk4 V c 1 t) ((dat4 V c).before 2 t d2) d Set.univ _)
  rw [hA]
  iframe H0 H1 H2 HS
  iintro ⟨H0, H1, H2, HS⟩
  iframe Ho H0 H1 Hr Hg
  isplitl [HS]
  · iexists outsAt4 V c t.val t.isLt; isplitr; · ipureintro; exact fun _ => rfl
    iexact HS
  by_cases h7 : t.val % 8 = 7
  · rw [if_pos ((hcond4_2 t).mpr h7), show (dat4 V c).leavesExact 2 t = owns (c : Thread nD τ) (ms4_2 t) fullShare (outsAt4 V c t.val t.isLt) from by
      unfold Dat.leavesExact; rw [Bool.eq_false_iff.mpr fun hb => (idleAt4_2 t).mp hb h7]; rfl]
    iexact H2
  · rw [if_neg (mt (hcond4_2 t).mp h7), Dat.leavesExact_idle (dat4 V c) 2 t ((idleAt4_2 t).mpr h7) (Bool.eq_false_iff.mpr (mt (flush4_2 t).mp h7))]
    iexists d2; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiA4_eq]; unfold PhiS4
  iintro ⟨⟨⟨%d, HS⟩, Hr⟩, Hg⟩
  iframe Hr Hg
  iexists d; isplitr; · ipureintro; exact fun h => absurd rfl h
  iexact HS

theorem hout4 (c : Dev nD) : (dat4 V c).Φ (Fin.last cfg4.N) ⊢ Pipeline.ΦA spec4 c := by
  rw [show (dat4 V c).Φ (Fin.last cfg4.N) = PhiS4 V c cfg4.N (Nat.le_refl _) from rfl, PhiA4_eq]; unfold PhiS4
  iintro ⟨⟨⟨%d, -, HS⟩, Hr⟩, Hg⟩
  iframe Hr Hg
  iexists d; iexact HS

end Cert.Kernel.Hand

end
-- ==== Proof.K.Mlp5.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S256x1024 := Rect.unit (s := S256x1024) ![0, 0] S256x1024.size inb_S256x1024_S256x1024_0_0
abbrev r5_w1 : Rect S1024x1024 := Rect.unit (s := S1024x1024) ![0, 0] S1024x1024.size inb_S1024x1024_S1024x1024_0_0
abbrev r5_b1 : Rect S1x1024 := Rect.unit (s := S1x1024) ![0, 0] S1x1024.size inb_S1x1024_S1x1024_0_0
abbrev r5_w2 : Rect S1024x4096 := Rect.unit (s := S1024x4096) ![0, 0] S1024x4096.size inb_S1024x4096_S1024x4096_0_0
abbrev r5_b2 : Rect S1x4096 := Rect.unit (s := S1x4096) ![0, 0] S1x4096.size inb_S1x4096_S1x4096_0_0
abbrev r5_out : Rect S256x4096 := Rect.unit (s := S256x4096) ![0, 0] S256x4096.size inb_S256x4096_S256x4096_0_0

def out5_5 (x : Vec F S256x1024 .bf16) (w1 : Vec F S1024x1024 .bf16) (b1 : Vec F S1x1024 .f32)
    (w2 : Vec F S1024x4096 .bf16) (b2 : Vec F S1x4096 .f32) : Vec F S256x4096 .f32 :=
  View.canon [⟨r5_out, k5_pay1 (View.ld x r5_x) (View.ld w1 r5_w1) (View.ld b1 r5_b1) (View.ld w2 r5_w2) (View.ld b2 r5_b2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

theorem hin5 (c : Dev nD) : Pipeline.ΦA spec5 c ⊢ (dat5 V c).Φ 0 := .rfl
theorem hout5 (c : Dev nD) : (dat5 V c).Φ (Fin.last cfg5.N) ⊢ Pipeline.ΦA spec5 c := .rfl
theorem q_eq5 (c : Dev nD) (w : Fin cfg5.W) : (dat5 V c).q w = fullShare := rfl
theorem owed_eq5 (c : Dev nD) (j : Fin (cfg5.N + 1)) : (dat5 V c).owed j = 0 := rfl

-- The body leaves every input block in place, so what it finds in an input buffer is what it leaves there.
private theorem before_in (c : Dev nD) (w : Fin cfg5.W) (hw : w ≠ 5) (t : Fin cfg5.N) (d) :
    (dat5 V c).before w t d = (dat5 V c).after w t := by
  fin_cases w <;> first
    | exact absurd rfl hw
    | exact ((dat5 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation5 (c : Dev nD) : BodyObligation (dat5 (F := F) V c) (defs₀ (F := F)) Variants.none () Set.univ := fun t => by
  rw [bigSep_W5, bigSep_W5]
  simp (disch := decide) only [before_in]
  rw [show (dat5 V c).Φ t.succ = (dat5 V c).Φ t.castSucc from rfl,
    show (dat5 V c).owesAt () t.succ = (dat5 V c).owesAt () t.castSucc from rfl,
    show (dat5 V c).after 5 t = out5_5 ((dat5 V c).after 0 t) ((dat5 V c).after 1 t) ((dat5 V c).after 2 t) ((dat5 V c).after 3 t)
      ((dat5 V c).after 4 t) from by dsimp only [dat5]]
  sl_whnfR [defs₀, Defs.onTc]
  simp only [cc5__mlp2_kernel_eq_skeleton]; unfold cc5__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r5_out, _⟩] S256x4096.size (by rfl) y

end Cert.Kernel.Hand
-- ==== Proof.K.Mlp6.lean ====
import proofs.«177075_j77953656422623_1_alg».proof.Proof.Gen.Kernel.Launch
import proofs.«177075_j77953656422623_1_alg».proof.Proof.Gen.Kernel.Skeleton
import proofs.«177075_j77953656422623_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S256x1024 := Rect.unit (s := S256x1024) ![0, 0] S256x1024.size inb_S256x1024_S256x1024_0_0
abbrev r6_w1 : Rect S1024x1024 := Rect.unit (s := S1024x1024) ![0, 0] S1024x1024.size inb_S1024x1024_S1024x1024_0_0
abbrev r6_b1 : Rect S1x1024 := Rect.unit (s := S1x1024) ![0, 0] S1x1024.size inb_S1x1024_S1x1024_0_0
abbrev r6_w2 : Rect S1024x4096 := Rect.unit (s := S1024x4096) ![0, 0] S1024x4096.size inb_S1024x4096_S1024x4096_0_0
abbrev r6_b2 : Rect S1x4096 := Rect.unit (s := S1x4096) ![0, 0] S1x4096.size inb_S1x4096_S1x4096_0_0
abbrev r6_out : Rect S256x4096 := Rect.unit (s := S256x4096) ![0, 0] S256x4096.size inb_S256x4096_S256x4096_0_0

def out6_5 (x : Vec F S256x1024 .bf16) (w1 : Vec F S1024x1024 .bf16) (b1 : Vec F S1x1024 .f32)
    (w2 : Vec F S1024x4096 .bf16) (b2 : Vec F S1x4096 .f32) : Vec F S256x4096 .f32 :=
  View.canon [⟨r6_out, k6_pay1 (View.ld x r6_x) (View.ld w1 r6_w1) (View.ld b1 r6_b1) (View.ld w2 r6_w2) (View.ld b2 r6_b2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

theorem hin6 (c : Dev nD) : Pipeline.ΦA spec6 c ⊢ (dat6 V c).Φ 0 := .rfl
theorem hout6 (c : Dev nD) : (dat6 V c).Φ (Fin.last cfg6.N) ⊢ Pipeline.ΦA spec6 c := .rfl
theorem q_eq6 (c : Dev nD) (w : Fin cfg6.W) : (dat6 V c).q w = fullShare := rfl
theorem owed_eq6 (c : Dev nD) (j : Fin (cfg6.N + 1)) : (dat6 V c).owed j = 0 := rfl

-- The body leaves every input block in place, so what it finds in an input buffer is what it leaves there.
private theorem before_in (c : Dev nD) (w : Fin cfg6.W) (hw : w ≠ 5) (t : Fin cfg6.N) (d) :
    (dat6 V c).before w t d = (dat6 V c).after w t := by
  fin_cases w <;> first
    | exact absurd rfl hw
    | exact ((dat6 V c).before_in_eq_fetched _ rfl (fun _ => rfl) (fun _ _ _ => rfl) (fun _ => rfl) t d).trans rfl

set_option maxHeartbeats 1000000 in
-- The body reads its five inputs whole and overwrites the whole result with one value: the inputs stay, the result is that value.
theorem body_obligation6 (c : Dev nD) : BodyObligation (dat6 (F := F) V c) (defs₀ (F := F)) Variants.none () Set.univ := fun t => by
  rw [bigSep_W6, bigSep_W6]
  simp (disch := decide) only [before_in]
  rw [show (dat6 V c).Φ t.succ = (dat6 V c).Φ t.castSucc from rfl,
    show (dat6 V c).owesAt () t.succ = (dat6 V c).owesAt () t.castSucc from rfl,
    show (dat6 V c).after 5 t = out6_5 ((dat6 V c).after 0 t) ((dat6 V c).after 1 t) ((dat6 V c).after 2 t) ((dat6 V c).after 3 t)
      ((dat6 V c).after 4 t) from by dsimp only [dat6]]
  sl_whnfR [defs₀, Defs.onTc]
  simp only [cc6__mlp2_kernel_eq_skeleton]; unfold cc6__mlp2_kernel_skel
  unfold owns
  iintro ⟨HΦ, Ho, ⟨%dX, %fX, %eX, HX⟩, ⟨%dW1, %fW1, %eW1, HW1⟩, ⟨%dB1, %fB1, %eB1, HB1⟩, ⟨%dW2, %fW2, %eW2, HW2⟩, ⟨%dB2, %fB2, %eB2, HB2⟩, ⟨%dO, %fO, -, HO⟩⟩
  sl_exec
  sl_step
  iframe HΦ Ho
  isplitl [HX]; · iexists fX; iframe %eX HX
  isplitl [HW1]; · iexists fW1; iframe %eW1 HW1
  isplitl [HB1]; · iexists fB1; iframe %eB1 HB1
  isplitl [HW2]; · iexists fW2; iframe %eW2 HW2
  isplitl [HB2]; · iexists fB2; iframe %eB2 HB2
  iexists _; isplitr
  swap; · iexact HO
  ipureintro
  rw [← eX, ← eW1, ← eB1, ← eW2, ← eB2]
  exact View.read_writes_eq_canon _ _ _ fun y => View.cover_of_tiled [⟨r6_out, _⟩] S256x4096.size (by rfl) y

end Cert.Kernel.Hand
-- ==== Proof.K.Fold.lean ====
import proofs.«177075_j77953656422623_1_alg».proof.Proof.Gen.Kernel.Regions
import proofs.«177075_j77953656422623_1_alg».proof.Proof.K.Mlp0
import proofs.«177075_j77953656422623_1_alg».proof.Proof.K.Mlp1
import proofs.«177075_j77953656422623_1_alg».proof.Proof.K.Mlp2
import proofs.«177075_j77953656422623_1_alg».proof.Proof.K.Pool3
import proofs.«177075_j77953656422623_1_alg».proof.Proof.K.Pool4
import proofs.«177075_j77953656422623_1_alg».proof.Proof.K.Mlp5
import proofs.«177075_j77953656422623_1_alg».proof.Proof.K.Mlp6
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c => V0 m c

abbrev W1 : Dev nD → Valuation τ sig (Elt F) := fun c => StableHlo.after hostOps0 (W0 m c)

def W2 (c : Dev nD) : Valuation τ sig (Elt F) :=
  Function.update (W1 m c) main_v15 ((dat0 (atTc (W1 m)) c).arrAt 5 cfg0.N)
abbrev W3 : Dev nD → Valuation τ sig (Elt F) := fun c => StableHlo.after hostOps1 (W2 m c)

def W4 (c : Dev nD) : Valuation τ sig (Elt F) :=
  Function.update (W3 m c) main_v18 ((dat1 (atTc (W3 m)) c).arrAt 5 cfg1.N)
abbrev W5 : Dev nD → Valuation τ sig (Elt F) := fun c => StableHlo.after hostOps2 (W4 m c)

def W6 (c : Dev nD) : Valuation τ sig (Elt F) :=
  Function.update (W5 m c) main_v21 ((dat2 (atTc (W5 m)) c).arrAt 5 cfg2.N)

def W7 (c : Dev nD) : Valuation τ sig (Elt F) :=
  Function.update (W6 m c) main_v22 ((dat3 (atTc (W6 m)) c).arrAt 2 cfg3.N)

def W8 (c : Dev nD) : Valuation τ sig (Elt F) :=
  Function.update (W7 m c) main_v23 ((dat4 (atTc (W7 m)) c).arrAt 2 cfg4.N)
abbrev W9 : Dev nD → Valuation τ sig (Elt F) := fun c => StableHlo.after hostOps5 (W8 m c)

def W10 (c : Dev nD) : Valuation τ sig (Elt F) :=
  Function.update (W9 m c) main_v30 ((dat5 (atTc (W9 m)) c).arrAt 5 cfg5.N)
abbrev W11 : Dev nD → Valuation τ sig (Elt F) := fun c => StableHlo.after hostOps6 (W10 m c)

def W12 (c : Dev nD) : Valuation τ sig (Elt F) :=
  Function.update (W11 m c) main_v33 ((dat6 (atTc (W11 m)) c).arrAt 5 cfg6.N)

def outs : Outs (F := F) := fun J r c =>
  match J with
  | 2 => W2 m c r | 4 => W4 m c r | 6 => W6 m c r | 7 => W7 m c r | 8 => W8 m c r | 10 => W10 m c r | 12 => W12 m c r
  | _ => W0 m c r

theorem V2_eq (c : Dev nD) : V2 m (outs m) c = W2 m c := by
  show Function.update (W1 m c) main_v15 (W2 m c main_v15) = W2 m c
  unfold W2; rw [Function.update_self]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v18 (W4 m c main_v18) = W4 m c
  rw [V3_eq]; unfold W4; rw [Function.update_self]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v21 (W6 m c main_v21) = W6 m c
  rw [V5_eq]; unfold W6; rw [Function.update_self]
theorem V7_eq (c : Dev nD) : V7 m (outs m) c = W7 m c := by
  show Function.update (V6 m (outs m) c) main_v22 (W7 m c main_v22) = W7 m c
  rw [V6_eq]; unfold W7; rw [Function.update_self]
theorem V8_eq (c : Dev nD) : V8 m (outs m) c = W8 m c := by
  show Function.update (V7 m (outs m) c) main_v23 (W8 m c main_v23) = W8 m c
  rw [V7_eq]; unfold W8; rw [Function.update_self]
theorem V9_eq (c : Dev nD) : V9 m (outs m) c = W9 m c := by
  show StableHlo.after hostOps5 (V8 m (outs m) c) = _; rw [V8_eq]
theorem V10_eq (c : Dev nD) : V10 m (outs m) c = W10 m c := by
  show Function.update (V9 m (outs m) c) main_v30 (W10 m c main_v30) = W10 m c
  rw [V9_eq]; unfold W10; rw [Function.update_self]
theorem V11_eq (c : Dev nD) : V11 m (outs m) c = W11 m c := by
  show StableHlo.after hostOps6 (V10 m (outs m) c) = _; rw [V10_eq]
theorem V12_eq (c : Dev nD) : V12 m (outs m) c = W12 m c := by
  show Function.update (V11 m (outs m) c) main_v33 (W12 m c main_v33) = W12 m c
  rw [V11_eq]; unfold W12; rw [Function.update_self]

def pdats : (p : Fin 7) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W6 m)) c
  | ⟨4, _⟩ => fun c => dat4 (atTc (W7 m)) c
  | ⟨5, _⟩ => fun c => dat5 (atTc (W9 m)) c
  | ⟨6, _⟩ => fun c => dat6 (atTc (W11 m)) c

abbrev 𝒱₀ : Variants := Variants.none

abbrev L : GSem nD τ sig → Finset Unit := fun _ => ∅
abbrev lv : GSem nD τ sig → Unit → ℕ := fun _ _ => 0

abbrev R (c : Dev nD) : sProp (MT nD τ sig Unit (Elt F) ℕ (UR sig nD τ) ℕ) :=
  iprop((∃ r, prngReg c r) ∗ ∃ W, owes (c : Thread nD τ) (0 : CellTallies nD τ sig Unit) W)

end Cert.Kernel.Hand

end
-- ==== Proof.K.Region.lean ====
import proofs.«177075_j77953656422623_1_alg».proof.Proof.K.Fold

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
-- a region whose windows are all inputs but one: entered at `Wa`, left at `Wa` with the output array overwritten
def regOf (p : Fin 7) (launch : Pipeline.LaunchFacts (nD := nD) (τ := τ) cfgs p)
    (Wa Wb : Dev nD → Valuation τ sig (Elt F)) (wo : Fin (cfgs p).W)
    (hWb : ∀ c, Wb c = Function.update (Wa c) (Pipeline.arrRef (cfgs p).spec wo) ((pdats m p c).arrAt wo (cfgs p).N))
    (hins : ∀ w, w ≠ wo → ((cfgs p).win w).isOut = false ∧ Pipeline.arrRef (cfgs p).spec w ≠ Pipeline.arrRef (cfgs p).spec wo)
    (hbody : ∀ c, BodyObligation (pdats m p c) (defs₀ (F := F)) Variants.none () Set.univ)
    (howed : ∀ c j, (pdats m p c).owed j = 0) (hrec : ∀ c, (pdats m p c).recorded 0 = Set.univ)
    (hq : ∀ c w, (pdats m p c).q w = fullShare)
    (hA : ∀ c w, (pdats m p c).A w = atTc Wa c (Pipeline.arrRef (cfgs p).spec w))
    (hΦin : ∀ c, Pipeline.ΦA (cfgs p).spec c ⊢ (pdats m p c).Φ 0)
    (hΦout : ∀ c, (pdats m p c).Φ (Fin.last (cfgs p).N) ⊢ Pipeline.ΦA (cfgs p).spec c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Wa c)
  hentry c := by
    rw [Pipeline.ownSems0_none]
    have hsplit := Pipeline.arrays_of_unscopedBufs (p := p) (pcfgs (F := F)) adm (pdats m) launch.win launch.arr_whole c
      ((pdats m p c).share_full (hq c)) (atTc Wa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c ▸ Set.mem_univ _)
      iexact HO
    isplitl [Hp]; · iexact Hp
    iexact Hrest
  hin c := by
    iintro ⟨Hp, -, Hr⟩
    iapply (hΦin c)
    unfold Pipeline.ΦA
    isplitl [Hr]; · iexact Hr
    iexact Hp
  hout c := by
    rw [Pipeline.ownSems0_none]
    have hgive := hΦout c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Wa c) (atTc Wb c) ((pdats m p c).arrAt · (cfgs p).N)
      (fun w => by
        show _ = Wb c (Pipeline.arrRef (cfgs p).spec w)
        rw [hWb c]
        by_cases hw : w = wo
        · subst hw; rw [Function.update_self]
        · rw [Function.update_of_ne (StableHlo.devRef_ne_of_ne (hins w hw).2)]
          exact ((pdats m p c).arrAt_in w (hins w hw).1 _).trans (hA c w))
      (fun b hb => by
        show Wb c b = Wa c b
        rw [hWb c]
        exact Function.update_of_ne (StableHlo.devRef_ne_of_ne fun e =>
          hb (Finset.mem_image.mpr ⟨wo, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m) () defs₀ 𝒱₀ L lv (0 : Fin 7) :=
  regOf m 0 launch0 (W1 m) (W2 m) 5 (fun _ => rfl) (by decide) (body_obligation0 _) (owed_eq0 _) (fun _ => rfl)
    (q_eq0 _) (A_eq0 _) (hin0 _) (hout0 _)

set_option backward.isDefEq.respectTransparency.types false in
def reg1 : Pipeline.RegionSeg (pcfgs (F := F)) adm (pdats m) () defs₀ 𝒱₀ L lv (1 : Fin 7) :=
  regOf m 1 launch1 (W3 m) (W4 m) 5 (fun _ => rfl) (by decide) (body_obligation1 _) (owed_eq1 _) (fun _ => rfl)
    (q_eq1 _) (A_eq1 _) (hin1 _) (hout1 _)

set_option backward.isDefEq.respectTransparency.types false in
def reg2 : Pipeline.RegionSeg (pcfgs (F := F)) adm (pdats m) () defs₀ 𝒱₀ L lv (2 : Fin 7) :=
  regOf m 2 launch2 (W5 m) (W6 m) 5 (fun _ => rfl) (by decide) (body_obligation2 _) (owed_eq2 _) (fun _ => rfl)
    (q_eq2 _) (A_eq2 _) (hin2 _) (hout2 _)

set_option backward.isDefEq.respectTransparency.types false in
def reg3 : Pipeline.RegionSeg (pcfgs (F := F)) adm (pdats m) () defs₀ 𝒱₀ L lv (3 : Fin 7) :=
  regOf m 3 launch3 (W6 m) (W7 m) 2 (fun _ => rfl) (by decide) (body_obligation3 _) (owed_eq3 _) (fun _ => rfl)
    (q_eq3 _) (A_eq3 _) (hin3 _) (hout3 _)

set_option backward.isDefEq.respectTransparency.types false in
def reg4 : Pipeline.RegionSeg (pcfgs (F := F)) adm (pdats m) () defs₀ 𝒱₀ L lv (4 : Fin 7) :=
  regOf m 4 launch4 (W7 m) (W8 m) 2 (fun _ => rfl) (by decide) (body_obligation4 _) (owed_eq4 _) (fun _ => rfl)
    (q_eq4 _) (A_eq4 _) (hin4 _) (hout4 _)

set_option backward.isDefEq.respectTransparency.types false in
def reg5 : Pipeline.RegionSeg (pcfgs (F := F)) adm (pdats m) () defs₀ 𝒱₀ L lv (5 : Fin 7) :=
  regOf m 5 launch5 (W9 m) (W10 m) 5 (fun _ => rfl) (by decide) (body_obligation5 _) (owed_eq5 _) (fun _ => rfl)
    (q_eq5 _) (A_eq5 _) (hin5 _) (hout5 _)

set_option backward.isDefEq.respectTransparency.types false in
def reg6 : Pipeline.RegionSeg (pcfgs (F := F)) adm (pdats m) () defs₀ 𝒱₀ L lv (6 : Fin 7) :=
  regOf m 6 launch6 (W11 m) (W12 m) 5 (fun _ => rfl) (by decide) (body_obligation6 _) (owed_eq6 _) (fun _ => rfl)
    (q_eq6 _) (A_eq6 _) (hin6 _) (hout6 _)

end Cert.Kernel.Hand

end
-- ==== Proof.K.Run.lean ====
import proofs.«177075_j77953656422623_1_alg».proof.Proof.K.Region

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev E : Fin 8 → Dev nD → sProp 𝕄 := fun _ c => R c

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : E (F := F) 7 c ⊢ (iprop(∃ W, owes (c : Thread nD τ) (0 : CellTallies nD τ sig Unit) W) : sProp 𝕄) := by
  iintro ⟨-, HO⟩; iexact HO

-- two valuations that are equal hold the same buffers
theorem heq {c : Dev nD} {V W : Valuation τ sig (Elt F)} (h : V = W) :
    iprop(StableHlo.held (c : Thread nD τ) (Pipeline.ucRefs τ sig) V ∗ R c) ⊢ iprop(StableHlo.held (c : Thread nD τ) (Pipeline.ucRefs τ sig) W ∗ R c) :=
  h ▸ .rfl

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_cond m emb₁ () 𝒱₀ L lv (fun _ _ => rfl) ρ (outs m) (pdats m) (0 : Dev nD → CellTallies nD τ sig Unit) (fun _ => (BI.emp : sProp 𝕄)) u₀ hu₀
    (E (F := F)) (hE0 ρ) hE7
    (R0 := reg0 m) (hpre0 := fun _ => .rfl) (hpost0 := fun c => heq (V2_eq m c).symm)
    (R1 := reg1 m) (hpre1 := fun c => heq (V3_eq m c)) (hpost1 := fun c => heq (V4_eq m c).symm)
    (R2 := reg2 m) (hpre2 := fun c => heq (V5_eq m c)) (hpost2 := fun c => heq (V6_eq m c).symm)
    (R3 := reg3 m) (hpre3 := fun c => heq (V6_eq m c)) (hpost3 := fun c => heq (V7_eq m c).symm)
    (R4 := reg4 m) (hpre4 := fun c => heq (V7_eq m c)) (hpost4 := fun c => heq (V8_eq m c).symm)
    (R5 := reg5 m) (hpre5 := fun c => heq (V9_eq m c)) (hpost5 := fun c => heq (V10_eq m c).symm)
    (R6 := reg6 m) (hpre6 := fun c => heq (V11_eq m c)) (hpost6 := fun c => heq (V12_eq m c).symm)

end Cert.Kernel.Hand

end
-- ==== Proof.LibRowLinear.lean ====
import Idealize.ShloMosaic.PureOps.Ideal.Laws
import Idealize.ShloMosaic.Lib.ValueIdx

noncomputable section

namespace Idealize.ShloMosaic.RowLinear

open Idealize.ShloMosaic Idealize.ShloMosaic.ValueIdx

section Record
variable {N K M : Nat}

private abbrev ddims (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ :=
  { lhsContracting := [1], rhsContracting := [0], lhsNonContracting := [0], rhsNonContracting := [1],
    lhsBatch := [], rhsBatch := [], wf := wf }

variable (wf : DotDims.WF ⟨2, ![N, K]⟩ ⟨2, ![K, M]⟩ ⟨2, ![N, M]⟩ [1] [0] [0] [1] [] [])
  (j : (⟨2, ![N, M]⟩ : Shape).Idx) (k : (ddims wf).contr.Idx)

private theorem coord_congr (p q : Nat) (hp : p < 2) (hq : q < 2) (h : p = q) :
    (j ⟨p, hp⟩).val = (j ⟨q, hq⟩).val := by subst h; rfl

private theorem lhs_axis0 : ((ddims wf).lhsIdx j k 0).val = (j 0).val := by
  unfold DotDims.lhsIdx
  rw [dif_neg List.not_mem_nil, dif_pos (show (0 : Fin 2) ∈ [(0 : Fin 2)] from List.mem_singleton.mpr rfl)]
  simp only [Fin.val_cast]
  exact coord_congr j _ _ _ _ (by simp)

private theorem lhs_axis1 : ((ddims wf).lhsIdx j k 1).val = (k ⟨0, by rw [(ddims wf).rank_contr]; exact Nat.one_pos⟩).val :=
  (ddims wf).lhsIdx_val_of_single (cl := 1) rfl j k

private theorem rhs_axis0 : ((ddims wf).rhsIdx j k 0).val = (k ⟨0, by rw [(ddims wf).rank_contr]; exact Nat.one_pos⟩).val :=
  (ddims wf).rhsIdx_val_of_single (cr := 0) rfl j k

private theorem rhs_axis1 : ((ddims wf).rhsIdx j k 1).val = (j 1).val := by
  unfold DotDims.rhsIdx
  rw [dif_neg List.not_mem_nil, dif_pos (show (1 : Fin 2) ∈ [(1 : Fin 2)] from List.mem_singleton.mpr rfl)]
  simp only [Fin.val_cast]
  exact coord_congr j _ _ _ _ (by simp)

end Record

theorem contraction_sum {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, M]⟩ : Shape).Idx → EReal) (n : Fin N) (c : Fin M) :
    ∑ k : d.contr.Idx, l (d.lhsIdx (ix2 n c) k) * r (d.rhsIdx (ix2 n c) k)
      = ∑ k : Fin K, l (ix2 n k) * r (ix2 k c) := by
  obtain ⟨lc, rc, ln, rn, lb, rb, wf⟩ := d
  simp only at hlc hrc hln hrn hlb hrb
  subst hlc hrc hln hrn hlb hrb
  rw [← Equiv.sum_comp (contrEquiv1 (ddims wf) K rfl rfl).symm]
  refine Finset.sum_congr rfl fun k _ => ?_
  have hk := contrEquiv1_symm_val (ddims wf) K rfl rfl k
  have el : (ddims wf).lhsIdx (ix2 n c) ((contrEquiv1 (ddims wf) K rfl rfl).symm k) = ix2 n k := by
    funext a; refine Fin.ext ?_
    match a with
    | ⟨0, _⟩ => exact lhs_axis0 wf _ _
    | ⟨1, _⟩ => exact (lhs_axis1 wf _ _).trans hk
  have er : (ddims wf).rhsIdx (ix2 n c) ((contrEquiv1 (ddims wf) K rfl rfl).symm k) = ix2 k c := by
    funext a; refine Fin.ext ?_
    match a with
    | ⟨0, _⟩ => exact (rhs_axis0 wf _ _).trans hk
    | ⟨1, _⟩ => exact rhs_axis1 wf _ _
  rw [el, er]

theorem dotGeneral_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    Host.dotGeneral d prec l r (ix2 n c) = ∑ k : Fin K, l (ix2 n k) * r (ix2 k c) := by
  show FloatOps.dotGeneral d prec _ l r (ix2 n c) = _
  rw [Ideal.dotGeneral_apply]
  exact contraction_sum d hlc hrc hln hrn hlb hrb l r n c

theorem matmul_zero_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    matmul d prec l r (constant ⟨2, ![N, M]⟩ .f32 0x00000000#32) (ix2 n c) = ∑ k : Fin K, l (ix2 n k) * r (ix2 k c) := by
  show FloatOps.matmul d prec l r (constant ⟨2, ![N, M]⟩ .f32 0x00000000#32) (ix2 n c) = _
  rw [Ideal.matmul_constant_zero_apply]
  exact contraction_sum d hlc hrc hln hrn hlb hrb l r n c

end Idealize.ShloMosaic.RowLinear

end
-- ==== Proof.Spec.lean ====
import proofs.«177075_j77953656422623_1_alg».proof.Proof.LibRowLinear

noncomputable section

namespace Cert.Spec

open Idealize.ShloMosaic Idealize.ShloMosaic.ValueIdx Idealize.ShloMosaic.RowLinear

abbrev Mat (N M : Nat) : Type := (⟨2, ![N, M]⟩ : Shape).Idx → EReal

abbrev Row (M : Nat) : Type := (⟨1, ![M]⟩ : Shape).Idx → EReal

variable {N K H O M A B C G T : Nat}

def hidden (x : Mat N K) (w1 : Mat K H) (b1 : Row H) : Mat N H :=
  fun j => max ((∑ k : Fin K, x (ix2 (j 0 : Fin N) k) * w1 (ix2 k (j 1 : Fin H))) + b1 (ix1 (j 1 : Fin H))) 0

def mlp (x : Mat N K) (w1 : Mat K H) (b1 : Row H) (w2 : Mat H O) (b2 : Row O) : Mat N O :=
  fun i => (∑ h : Fin H, hidden x w1 b1 (ix2 (i 0 : Fin N) h) * w2 (ix2 h (i 1 : Fin O))) + b2 (ix1 (i 1 : Fin O))

theorem hidden_apply (x : Mat N K) (w1 : Mat K H) (b1 : Row H) (n : Fin N) (h : Fin H) :
    hidden x w1 b1 (ix2 n h) = max ((∑ k : Fin K, x (ix2 n k) * w1 (ix2 k h)) + b1 (ix1 h)) 0 := rfl

theorem mlp_apply (x : Mat N K) (w1 : Mat K H) (b1 : Row H) (w2 : Mat H O) (b2 : Row O) (n : Fin N) (o : Fin O) :
    mlp x w1 b1 w2 b2 (ix2 n o) = (∑ h : Fin H, hidden x w1 b1 (ix2 n h) * w2 (ix2 h o)) + b2 (ix1 o) := rfl

theorem mlp_of_rows {P : Nat} (xb : Mat P K) (x : Mat N K) (w1 : Mat K H) (b1 : Row H) (w2 : Mat H O) (b2 : Row O)
    (p : Fin P) (n : Fin N) (o : Fin O) (hrow : ∀ k : Fin K, xb (ix2 p k) = x (ix2 n k)) :
    mlp xb w1 b1 w2 b2 (ix2 p o) = mlp x w1 b1 w2 b2 (ix2 n o) := by
  rw [mlp_apply, mlp_apply]
  congr 1
  refine Finset.sum_congr rfl fun h _ => ?_
  rw [hidden_apply, hidden_apply]
  congr 3
  exact Finset.sum_congr rfl fun k _ => by rw [hrow k]

def pool (a : Mat N M) (b : Mat N O) : Mat M O :=
  fun i => ∑ n : Fin N, a (ix2 n (i 0 : Fin M)) * b (ix2 n (i 1 : Fin O))

theorem pool_apply (a : Mat N M) (b : Mat N O) (i : Fin M) (j : Fin O) :
    pool a b (ix2 i j) = ∑ n : Fin N, a (ix2 n i) * b (ix2 n j) := rfl

theorem group_row_lt {g r : Nat} (hg : g < G) (hr : r < T) : g * T + r < G * T :=
  calc g * T + r < g * T + T := Nat.add_lt_add_left hr _
    _ = (g + 1) * T := (Nat.succ_mul g T).symm
    _ ≤ G * T := Nat.mul_le_mul_right T hg

def poolUpTo (a : Mat (G * T) M) (b : Mat (G * T) O) (g : Nat) : Mat M O :=
  fun i => ∑ k ∈ (Finset.univ : Finset (Fin G)).filter (fun k => k.val < g),
    ∑ r : Fin T, a (ix2 ⟨k.val * T + r.val, group_row_lt k.isLt r.isLt⟩ (i 0 : Fin M))
      * b (ix2 ⟨k.val * T + r.val, group_row_lt k.isLt r.isLt⟩ (i 1 : Fin O))

theorem poolUpTo_zero (a : Mat (G * T) M) (b : Mat (G * T) O) : poolUpTo a b 0 = fun _ => 0 := by
  funext i
  simp [poolUpTo]

theorem poolUpTo_succ (a : Mat (G * T) M) (b : Mat (G * T) O) (g : Nat) (hg : g < G) (i : Fin M) (j : Fin O) :
    poolUpTo a b (g + 1) (ix2 i j) = poolUpTo a b g (ix2 i j)
      + ∑ r : Fin T, a (ix2 ⟨g * T + r.val, group_row_lt hg r.isLt⟩ i) * b (ix2 ⟨g * T + r.val, group_row_lt hg r.isLt⟩ j) := by
  have hset : (Finset.univ : Finset (Fin G)).filter (fun k => k.val < g + 1)
      = insert (⟨g, hg⟩ : Fin G) ((Finset.univ : Finset (Fin G)).filter (fun k => k.val < g)) := by
    ext k
    simp only [Finset.mem_filter, Finset.mem_univ, true_and, Finset.mem_insert, Fin.ext_iff]
    omega
  have hnot : (⟨g, hg⟩ : Fin G) ∉ (Finset.univ : Finset (Fin G)).filter (fun k => k.val < g) := by
    simp
  unfold poolUpTo
  rw [hset, Finset.sum_insert hnot, add_comm]
  rfl

theorem pool_eq_poolUpTo (a : Mat (G * T) M) (b : Mat (G * T) O) : pool a b = poolUpTo a b G := by
  funext i
  unfold pool poolUpTo
  rw [Finset.filter_true_of_mem (fun k _ => k.isLt), ← Equiv.sum_comp finProdFinEquiv, Fintype.sum_prod_type]
  refine Finset.sum_congr rfl fun k _ => Finset.sum_congr rfl fun r _ => ?_
  have hrow : (finProdFinEquiv (k, r) : Fin (G * T)) = ⟨k.val * T + r.val, group_row_lt k.isLt r.isLt⟩ :=
    Fin.ext (by simp only [finProdFinEquiv_apply_val]; rw [Nat.mul_comm, Nat.add_comm])
  rw [hrow]

def hcat (l : Mat N A) (r : Mat N B) : Mat N C :=
  fun i => if h : (i 1 : Fin C).val < A then l (ix2 (i 0 : Fin N) ⟨(i 1 : Fin C).val, h⟩)
    else if h2 : (i 1 : Fin C).val - A < B then r (ix2 (i 0 : Fin N) ⟨(i 1 : Fin C).val - A, h2⟩) else 0

end Cert.Spec

end
-- ==== Proof.KI.Mlp0Value.lean ====
import proofs.«177075_j77953656422623_1_alg».proof.Proof.KI.Mlp0
import proofs.«177075_j77953656422623_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

local notation "nRows" => 16384
local notation "blockRows" => 512
local notation "nPoints" => 32
local notation "wIn" => 4096
local notation "wHid" => 1024
local notation "wOut" => 512

-- Entry by entry the stored value is two products into zero accumulators, each bias read at its one row, and a maximum against zero.
theorem pay0_apply (x : Vec Ideal S512x4096 .bf16) (w1 : Vec Ideal S4096x1024 .bf16) (b1 : Vec Ideal S1x1024 .f32)
    (w2 : Vec Ideal S1024x512 .bf16) (b2 : Vec Ideal S1x512 .f32) (p : Fin blockRows) (o : Fin wOut) :
    k0_pay1 x w1 b1 w2 b2 (ix2 p o)
      = Cert.Spec.mlp (N := blockRows) (K := wIn) (H := wHid) (O := wOut) x w1 (fun j => b1 (ix2 (0 : Fin 1) (j 0 : Fin wHid))) w2
          (fun j => b2 (ix2 (0 : Fin 1) (j 0 : Fin wOut))) (ix2 p o) := by
  rw [Cert.Spec.mlp_apply]
  unfold k0_pay1
  rw [addf_apply, RowLinear.matmul_zero_apply _ rfl rfl rfl rfl rfl rfl, broadcastTo_1b_ab_apply]
  simp only [shapeCast_self]
  congr 1
  refine Finset.sum_congr rfl fun h _ => ?_
  rw [truncf_apply, maximumf_apply, addf_apply, RowLinear.matmul_zero_apply _ rfl rfl rfl rfl rfl rfl, broadcastTo_1b_ab_apply,
    broadcast_apply, Cert.Spec.hidden_apply]
  show max _ (Ideal.ofBits .f32 0x00000000#32) * _ = _
  rw [Ideal.ofBits_zero_f32]

variable (V : (c : Dev nD) → (b : Ref sig .tc) → Buf (Elt Ideal) ((c : Thread nD τ).loc b))

private theorem hz : (![0, 0] : Fin 2 → Nat) = fun _ => 0 := funext fun a => by fin_cases a <;> rfl

theorem index_facts0 : ∀ t : Fin cfg0.N,
    win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

private theorem index_zero : ∀ (t : Fin cfg0.N) (a : Fin 2),
    win0_1.index t a = 0 ∧ win0_2.index t a = 0 ∧ win0_3.index t a = 0 ∧ win0_4.index t a = 0 :=
  (by decide +kernel : ∀ (t : Fin grid0.N) (a : Fin 2), _)

theorem rows0_apply (c : Dev nD) (t : Fin cfg0.N) (p : Fin blockRows) (k : Fin wIn) (n : Fin nRows)
    (hn : n.val = t.val * blockRows + p.val) :
    (iblk0 V c 0 t : Vec Ideal S512x4096 .bf16) (ix2 p k) = (V c main_v0 : S16384x4096.Idx → EReal) (ix2 n k) := by
  obtain ⟨e0, e1, -⟩ := index_facts0 t
  unfold iblk0
  rw [View.read_apply]
  show (V c main_v0 : S16384x4096.Idx → EReal) _ = _
  congr 1
  funext a
  apply Fin.ext
  match a with
  | ⟨0, _⟩ => show win0_0.index t (0 : Fin 2) * blockRows + 1 * p.val = n.val; omega
  | ⟨1, _⟩ => show win0_0.index t (1 : Fin 2) * wIn + 1 * k.val = k.val; omega

-- A block taken at offset zero with the array's own extents is the array.
private theorem params_eq (c : Dev nD) (t : Fin cfg0.N) :
    (iblk0 V c 1 t : Vec Ideal S4096x1024 .bf16) = V c main_v3 ∧ (iblk0 V c 2 t : Vec Ideal S1x1024 .f32) = V c main_v13
    ∧ (iblk0 V c 3 t : Vec Ideal S1024x512 .bf16) = V c main_v4 ∧ (iblk0 V c 4 t : Vec Ideal S1x512 .f32) = V c main_v14 := by
  refine ⟨?_, ?_, ?_, ?_⟩ <;> funext y <;> unfold iblk0 <;> rw [View.read_apply]
  · exact congrArg (V c main_v3 : S4096x1024.Idx → EReal) (funext fun a => Fin.ext (win0_1.rect_emb_val_of_index_zero t a (index_zero t a).1 y))
  · exact congrArg (V c main_v13 : S1x1024.Idx → EReal) (funext fun a => Fin.ext (win0_2.rect_emb_val_of_index_zero t a (index_zero t a).2.1 y))
  · exact congrArg (V c main_v4 : S1024x512.Idx → EReal) (funext fun a => Fin.ext (win0_3.rect_emb_val_of_index_zero t a (index_zero t a).2.2.1 y))
  · exact congrArg (V c main_v14 : S1x512.Idx → EReal) (funext fun a => Fin.ext (win0_4.rect_emb_val_of_index_zero t a (index_zero t a).2.2.2 y))

theorem mem_blk0 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v15).slice (win0_5.rect t)).set ↔ _
  rw [View.set_slice_whole, Rect.mem_set_unit]
  exact Iff.rfl

theorem cover0 (i : S16384x512.Idx) : ∃ t : Fin cfg0.N, (cfg0.win 5).flush t = true ∧ i ∈ ((cfg0.win 5).blk t).view.set := by
  have hi0 : (i 0).val < nRows := (i 0).isLt
  have hi1 : (i 1).val < wOut := (i 1).isLt
  have hq : (i 0).val / blockRows < nPoints := by omega
  refine ⟨⟨(i 0).val / blockRows, hq⟩, flush0_5 _, ?_⟩
  rw [mem_blk0]
  obtain ⟨-, -, e0, e1⟩ := index_facts0 ⟨(i 0).val / blockRows, hq⟩
  intro a
  match a with
  | ⟨0, _⟩ =>
    show win0_5.index _ (0 : Fin 2) * blockRows ≤ (i 0).val ∧ (i 0).val < win0_5.index _ (0 : Fin 2) * blockRows + blockRows
    rw [e0]
    show (i 0).val / blockRows * blockRows ≤ (i 0).val ∧ (i 0).val < (i 0).val / blockRows * blockRows + blockRows
    omega
  | ⟨1, _⟩ =>
    show win0_5.index _ (1 : Fin 2) * wOut ≤ (i 1).val ∧ (i 1).val < win0_5.index _ (1 : Fin 2) * wOut + wOut
    rw [e1]; omega

-- Row p of the perceptron of block t is row blockRows·t + p of the perceptron of the whole input, and the blocks cover the result.
theorem mlp0_value (c : Dev nD) :
    (dat0 V c).arrAt 5 cfg0.N
      = Cert.Spec.mlp (N := nRows) (K := wIn) (H := wHid) (O := wOut) (V c main_v0) (V c main_v3)
          (fun j => (V c main_v13 : S1x1024.Idx → EReal) (ix2 (0 : Fin 1) (j 0 : Fin wHid))) (V c main_v4)
          (fun j => (V c main_v14 : S1x512.Idx → EReal) (ix2 (0 : Fin 1) (j 0 : Fin wOut))) := by
  refine (dat0 V c).arrAt_eq_of_cover 5 _ (fun t _ => ?_) cover0
  show (cfg0.win 5).cut (grid0.coords t) ((dat0 V c).after 5 t) = _
  rw [after0_5]
  unfold out0_5
  rw [View.canon_unit_zero hz]
  simp only [View.ld_unit_zero (S := S512x4096) hz, View.ld_unit_zero (S := S4096x1024) hz, View.ld_unit_zero (S := S1x1024) hz,
    View.ld_unit_zero (S := S1024x512) hz, View.ld_unit_zero (S := S1x512) hz]
  obtain ⟨h1, h2, h3, h4⟩ := params_eq V c t
  rw [h1, h2, h3, h4]
  obtain ⟨-, -, e0, e1⟩ := index_facts0 t
  funext j
  obtain ⟨p, o, rfl⟩ : ∃ (p : Fin blockRows) (o : Fin wOut), j = ix2 p o := ⟨j 0, j 1, eq_ix2 j⟩
  have ht : t.val < nPoints := t.isLt
  have hn : t.val * blockRows + p.val < nRows := by have := p.isLt; omega
  rw [View.read_apply]
  have hemb : ((cfg0.win 5).blk t).view.emb (ix2 p o) = (ix2 (⟨t.val * blockRows + p.val, hn⟩ : Fin nRows) o : S16384x512.Idx) := by
    funext a
    apply Fin.ext
    match a with
    | ⟨0, _⟩ => show win0_5.index t (0 : Fin 2) * blockRows + 1 * p.val = t.val * blockRows + p.val; omega
    | ⟨1, _⟩ => show win0_5.index t (1 : Fin 2) * wOut + 1 * o.val = o.val; omega
  rw [hemb]
  show k0_pay1 (iblk0 V c 0 t) (V c main_v3) (V c main_v13) (V c main_v4) (V c main_v14) (ix2 p o) = _
  rw [pay0_apply]
  exact Cert.Spec.mlp_of_rows _ _ _ _ _ _ p ⟨t.val * blockRows + p.val, hn⟩ o fun k => rows0_apply V c t p k _ rfl

end Cert.KernelIdeal.HandValue

end
-- ==== Proof.KI.Mlp1Value.lean ====
import proofs.«177075_j77953656422623_1_alg».proof.Proof.KI.Mlp1
import proofs.«177075_j77953656422623_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

local notation "nRows" => 16384
local notation "blockRows" => 512
local notation "nPoints" => 32
local notation "wIn" => 4096
local notation "wHid" => 1024
local notation "wOut" => 512

-- Entry by entry the stored value is two products into zero accumulators, each bias read at its one row, and a maximum against zero.
theorem pay1_apply (x : Vec Ideal S512x4096 .bf16) (w1 : Vec Ideal S4096x1024 .bf16) (b1 : Vec Ideal S1x1024 .f32)
    (w2 : Vec Ideal S1024x512 .bf16) (b2 : Vec Ideal S1x512 .f32) (p : Fin blockRows) (o : Fin wOut) :
    k1_pay1 x w1 b1 w2 b2 (ix2 p o)
      = Cert.Spec.mlp (N := blockRows) (K := wIn) (H := wHid) (O := wOut) x w1 (fun j => b1 (ix2 (0 : Fin 1) (j 0 : Fin wHid))) w2
          (fun j => b2 (ix2 (0 : Fin 1) (j 0 : Fin wOut))) (ix2 p o) := by
  rw [Cert.Spec.mlp_apply]
  unfold k1_pay1
  rw [addf_apply, RowLinear.matmul_zero_apply _ rfl rfl rfl rfl rfl rfl, broadcastTo_1b_ab_apply]
  simp only [shapeCast_self]
  congr 1
  refine Finset.sum_congr rfl fun h _ => ?_
  rw [truncf_apply, maximumf_apply, addf_apply, RowLinear.matmul_zero_apply _ rfl rfl rfl rfl rfl rfl, broadcastTo_1b_ab_apply,
    broadcast_apply, Cert.Spec.hidden_apply]
  show max _ (Ideal.ofBits .f32 0x00000000#32) * _ = _
  rw [Ideal.ofBits_zero_f32]

variable (V : (c : Dev nD) → (b : Ref sig .tc) → Buf (Elt Ideal) ((c : Thread nD τ).loc b))

private theorem hz : (![0, 0] : Fin 2 → Nat) = fun _ => 0 := funext fun a => by fin_cases a <;> rfl

theorem index_facts1 : ∀ t : Fin cfg1.N,
    win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

private theorem index_zero : ∀ (t : Fin cfg1.N) (a : Fin 2),
    win1_1.index t a = 0 ∧ win1_2.index t a = 0 ∧ win1_3.index t a = 0 ∧ win1_4.index t a = 0 :=
  (by decide +kernel : ∀ (t : Fin grid1.N) (a : Fin 2), _)

theorem rows1_apply (c : Dev nD) (t : Fin cfg1.N) (p : Fin blockRows) (k : Fin wIn) (n : Fin nRows)
    (hn : n.val = t.val * blockRows + p.val) :
    (iblk1 V c 0 t : Vec Ideal S512x4096 .bf16) (ix2 p k) = (V c main_v1 : S16384x4096.Idx → EReal) (ix2 n k) := by
  obtain ⟨e0, e1, -⟩ := index_facts1 t
  unfold iblk1
  rw [View.read_apply]
  show (V c main_v1 : S16384x4096.Idx → EReal) _ = _
  congr 1
  funext a
  apply Fin.ext
  match a with
  | ⟨0, _⟩ => show win1_0.index t (0 : Fin 2) * blockRows + 1 * p.val = n.val; omega
  | ⟨1, _⟩ => show win1_0.index t (1 : Fin 2) * wIn + 1 * k.val = k.val; omega

-- A block taken at offset zero with the array's own extents is the array.
private theorem params_eq (c : Dev nD) (t : Fin cfg1.N) :
    (iblk1 V c 1 t : Vec Ideal S4096x1024 .bf16) = V c main_v5 ∧ (iblk1 V c 2 t : Vec Ideal S1x1024 .f32) = V c main_v16
    ∧ (iblk1 V c 3 t : Vec Ideal S1024x512 .bf16) = V c main_v6 ∧ (iblk1 V c 4 t : Vec Ideal S1x512 .f32) = V c main_v17 := by
  refine ⟨?_, ?_, ?_, ?_⟩ <;> funext y <;> unfold iblk1 <;> rw [View.read_apply]
  · exact congrArg (V c main_v5 : S4096x1024.Idx → EReal) (funext fun a => Fin.ext (win1_1.rect_emb_val_of_index_zero t a (index_zero t a).1 y))
  · exact congrArg (V c main_v16 : S1x1024.Idx → EReal) (funext fun a => Fin.ext (win1_2.rect_emb_val_of_index_zero t a (index_zero t a).2.1 y))
  · exact congrArg (V c main_v6 : S1024x512.Idx → EReal) (funext fun a => Fin.ext (win1_3.rect_emb_val_of_index_zero t a (index_zero t a).2.2.1 y))
  · exact congrArg (V c main_v17 : S1x512.Idx → EReal) (funext fun a => Fin.ext (win1_4.rect_emb_val_of_index_zero t a (index_zero t a).2.2.2 y))

theorem mem_blk1 (t : Fin cfg1.N) (i : S16384x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v18).slice (win1_5.rect t)).set ↔ _
  rw [View.set_slice_whole, Rect.mem_set_unit]
  exact Iff.rfl

theorem cover1 (i : S16384x512.Idx) : ∃ t : Fin cfg1.N, (cfg1.win 5).flush t = true ∧ i ∈ ((cfg1.win 5).blk t).view.set := by
  have hi0 : (i 0).val < nRows := (i 0).isLt
  have hi1 : (i 1).val < wOut := (i 1).isLt
  have hq : (i 0).val / blockRows < nPoints := by omega
  refine ⟨⟨(i 0).val / blockRows, hq⟩, flush1_5 _, ?_⟩
  rw [mem_blk1]
  obtain ⟨-, -, e0, e1⟩ := index_facts1 ⟨(i 0).val / blockRows, hq⟩
  intro a
  match a with
  | ⟨0, _⟩ =>
    show win1_5.index _ (0 : Fin 2) * blockRows ≤ (i 0).val ∧ (i 0).val < win1_5.index _ (0 : Fin 2) * blockRows + blockRows
    rw [e0]
    show (i 0).val / blockRows * blockRows ≤ (i 0).val ∧ (i 0).val < (i 0).val / blockRows * blockRows + blockRows
    omega
  | ⟨1, _⟩ =>
    show win1_5.index _ (1 : Fin 2) * wOut ≤ (i 1).val ∧ (i 1).val < win1_5.index _ (1 : Fin 2) * wOut + wOut
    rw [e1]; omega

-- Row p of the perceptron of block t is row blockRows·t + p of the perceptron of the whole input, and the blocks cover the result.
theorem mlp1_value (c : Dev nD) :
    (dat1 V c).arrAt 5 cfg1.N
      = Cert.Spec.mlp (N := nRows) (K := wIn) (H := wHid) (O := wOut) (V c main_v1) (V c main_v5)
          (fun j => (V c main_v16 : S1x1024.Idx → EReal) (ix2 (0 : Fin 1) (j 0 : Fin wHid))) (V c main_v6)
          (fun j => (V c main_v17 : S1x512.Idx → EReal) (ix2 (0 : Fin 1) (j 0 : Fin wOut))) := by
  refine (dat1 V c).arrAt_eq_of_cover 5 _ (fun t _ => ?_) cover1
  show (cfg1.win 5).cut (grid1.coords t) ((dat1 V c).after 5 t) = _
  rw [after1_5]
  unfold out1_5
  rw [View.canon_unit_zero hz]
  simp only [View.ld_unit_zero (S := S512x4096) hz, View.ld_unit_zero (S := S4096x1024) hz, View.ld_unit_zero (S := S1x1024) hz,
    View.ld_unit_zero (S := S1024x512) hz, View.ld_unit_zero (S := S1x512) hz]
  obtain ⟨h1, h2, h3, h4⟩ := params_eq V c t
  rw [h1, h2, h3, h4]
  obtain ⟨-, -, e0, e1⟩ := index_facts1 t
  funext j
  obtain ⟨p, o, rfl⟩ : ∃ (p : Fin blockRows) (o : Fin wOut), j = ix2 p o := ⟨j 0, j 1, eq_ix2 j⟩
  have ht : t.val < nPoints := t.isLt
  have hn : t.val * blockRows + p.val < nRows := by have := p.isLt; omega
  rw [View.read_apply]
  have hemb : ((cfg1.win 5).blk t).view.emb (ix2 p o) = (ix2 (⟨t.val * blockRows + p.val, hn⟩ : Fin nRows) o : S16384x512.Idx) := by
    funext a
    apply Fin.ext
    match a with
    | ⟨0, _⟩ => show win1_5.index t (0 : Fin 2) * blockRows + 1 * p.val = t.val * blockRows + p.val; omega
    | ⟨1, _⟩ => show win1_5.index t (1 : Fin 2) * wOut + 1 * o.val = o.val; omega
  rw [hemb]
  show k1_pay1 (iblk1 V c 0 t) (V c main_v5) (V c main_v16) (V c main_v6) (V c main_v17) (ix2 p o) = _
  rw [pay1_apply]
  exact Cert.Spec.mlp_of_rows _ _ _ _ _ _ p ⟨t.val * blockRows + p.val, hn⟩ o fun k => rows1_apply V c t p k _ rfl

end Cert.KernelIdeal.HandValue

end
-- ==== Proof.KI.Mlp2Value.lean ====
import proofs.«177075_j77953656422623_1_alg».proof.Proof.KI.Mlp2
import proofs.«177075_j77953656422623_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

local notation "nRows" => 4096
local notation "blockRows" => 512
local notation "nPoints" => 8
local notation "wIn" => 4096
local notation "wHid" => 1024
local notation "wOut" => 512

-- Entry by entry the stored value is two products into zero accumulators, each bias read at its one row, and a maximum against zero.
theorem pay2_apply (x : Vec Ideal S512x4096 .bf16) (w1 : Vec Ideal S4096x1024 .bf16) (b1 : Vec Ideal S1x1024 .f32)
    (w2 : Vec Ideal S1024x512 .bf16) (b2 : Vec Ideal S1x512 .f32) (p : Fin blockRows) (o : Fin wOut) :
    k2_pay1 x w1 b1 w2 b2 (ix2 p o)
      = Cert.Spec.mlp (N := blockRows) (K := wIn) (H := wHid) (O := wOut) x w1 (fun j => b1 (ix2 (0 : Fin 1) (j 0 : Fin wHid))) w2
          (fun j => b2 (ix2 (0 : Fin 1) (j 0 : Fin wOut))) (ix2 p o) := by
  rw [Cert.Spec.mlp_apply]
  unfold k2_pay1
  rw [addf_apply, RowLinear.matmul_zero_apply _ rfl rfl rfl rfl rfl rfl, broadcastTo_1b_ab_apply]
  simp only [shapeCast_self]
  congr 1
  refine Finset.sum_congr rfl fun h _ => ?_
  rw [truncf_apply, maximumf_apply, addf_apply, RowLinear.matmul_zero_apply _ rfl rfl rfl rfl rfl rfl, broadcastTo_1b_ab_apply,
    broadcast_apply, Cert.Spec.hidden_apply]
  show max _ (Ideal.ofBits .f32 0x00000000#32) * _ = _
  rw [Ideal.ofBits_zero_f32]

variable (V : (c : Dev nD) → (b : Ref sig .tc) → Buf (Elt Ideal) ((c : Thread nD τ).loc b))

private theorem hz : (![0, 0] : Fin 2 → Nat) = fun _ => 0 := funext fun a => by fin_cases a <;> rfl

theorem index_facts2 : ∀ t : Fin cfg2.N,
    win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

private theorem index_zero : ∀ (t : Fin cfg2.N) (a : Fin 2),
    win2_1.index t a = 0 ∧ win2_2.index t a = 0 ∧ win2_3.index t a = 0 ∧ win2_4.index t a = 0 :=
  (by decide +kernel : ∀ (t : Fin grid2.N) (a : Fin 2), _)

theorem rows2_apply (c : Dev nD) (t : Fin cfg2.N) (p : Fin blockRows) (k : Fin wIn) (n : Fin nRows)
    (hn : n.val = t.val * blockRows + p.val) :
    (iblk2 V c 0 t : Vec Ideal S512x4096 .bf16) (ix2 p k) = (V c main_v2 : S4096x4096.Idx → EReal) (ix2 n k) := by
  obtain ⟨e0, e1, -⟩ := index_facts2 t
  unfold iblk2
  rw [View.read_apply]
  show (V c main_v2 : S4096x4096.Idx → EReal) _ = _
  congr 1
  funext a
  apply Fin.ext
  match a with
  | ⟨0, _⟩ => show win2_0.index t (0 : Fin 2) * blockRows + 1 * p.val = n.val; omega
  | ⟨1, _⟩ => show win2_0.index t (1 : Fin 2) * wIn + 1 * k.val = k.val; omega

-- A block taken at offset zero with the array's own extents is the array.
private theorem params_eq (c : Dev nD) (t : Fin cfg2.N) :
    (iblk2 V c 1 t : Vec Ideal S4096x1024 .bf16) = V c main_v7 ∧ (iblk2 V c 2 t : Vec Ideal S1x1024 .f32) = V c main_v19
    ∧ (iblk2 V c 3 t : Vec Ideal S1024x512 .bf16) = V c main_v8 ∧ (iblk2 V c 4 t : Vec Ideal S1x512 .f32) = V c main_v20 := by
  refine ⟨?_, ?_, ?_, ?_⟩ <;> funext y <;> unfold iblk2 <;> rw [View.read_apply]
  · exact congrArg (V c main_v7 : S4096x1024.Idx → EReal) (funext fun a => Fin.ext (win2_1.rect_emb_val_of_index_zero t a (index_zero t a).1 y))
  · exact congrArg (V c main_v19 : S1x1024.Idx → EReal) (funext fun a => Fin.ext (win2_2.rect_emb_val_of_index_zero t a (index_zero t a).2.1 y))
  · exact congrArg (V c main_v8 : S1024x512.Idx → EReal) (funext fun a => Fin.ext (win2_3.rect_emb_val_of_index_zero t a (index_zero t a).2.2.1 y))
  · exact congrArg (V c main_v20 : S1x512.Idx → EReal) (funext fun a => Fin.ext (win2_4.rect_emb_val_of_index_zero t a (index_zero t a).2.2.2 y))

theorem mem_blk2 (t : Fin cfg2.N) (i : S4096x512.Idx) :
    i ∈ ((cfg2.win 5).blk t).view.set ↔ ∀ a : Fin 2, win2_5.index t a * S512x512.size a ≤ (i a).val ∧ (i a).val < win2_5.index t a * S512x512.size a + S512x512.size a := by
  show i ∈ ((View.whole main_v21).slice (win2_5.rect t)).set ↔ _
  rw [View.set_slice_whole, Rect.mem_set_unit]
  exact Iff.rfl

theorem cover2 (i : S4096x512.Idx) : ∃ t : Fin cfg2.N, (cfg2.win 5).flush t = true ∧ i ∈ ((cfg2.win 5).blk t).view.set := by
  have hi0 : (i 0).val < nRows := (i 0).isLt
  have hi1 : (i 1).val < wOut := (i 1).isLt
  have hq : (i 0).val / blockRows < nPoints := by omega
  refine ⟨⟨(i 0).val / blockRows, hq⟩, flush2_5 _, ?_⟩
  rw [mem_blk2]
  obtain ⟨-, -, e0, e1⟩ := index_facts2 ⟨(i 0).val / blockRows, hq⟩
  intro a
  match a with
  | ⟨0, _⟩ =>
    show win2_5.index _ (0 : Fin 2) * blockRows ≤ (i 0).val ∧ (i 0).val < win2_5.index _ (0 : Fin 2) * blockRows + blockRows
    rw [e0]
    show (i 0).val / blockRows * blockRows ≤ (i 0).val ∧ (i 0).val < (i 0).val / blockRows * blockRows + blockRows
    omega
  | ⟨1, _⟩ =>
    show win2_5.index _ (1 : Fin 2) * wOut ≤ (i 1).val ∧ (i 1).val < win2_5.index _ (1 : Fin 2) * wOut + wOut
    rw [e1]; omega

-- Row p of the perceptron of block t is row blockRows·t + p of the perceptron of the whole input, and the blocks cover the result.
theorem mlp2_value (c : Dev nD) :
    (dat2 V c).arrAt 5 cfg2.N
      = Cert.Spec.mlp (N := nRows) (K := wIn) (H := wHid) (O := wOut) (V c main_v2) (V c main_v7)
          (fun j => (V c main_v19 : S1x1024.Idx → EReal) (ix2 (0 : Fin 1) (j 0 : Fin wHid))) (V c main_v8)
          (fun j => (V c main_v20 : S1x512.Idx → EReal) (ix2 (0 : Fin 1) (j 0 : Fin wOut))) := by
  refine (dat2 V c).arrAt_eq_of_cover 5 _ (fun t _ => ?_) cover2
  show (cfg2.win 5).cut (grid2.coords t) ((dat2 V c).after 5 t) = _
  rw [after2_5]
  unfold out2_5
  rw [View.canon_unit_zero hz]
  simp only [View.ld_unit_zero (S := S512x4096) hz, View.ld_unit_zero (S := S4096x1024) hz, View.ld_unit_zero (S := S1x1024) hz,
    View.ld_unit_zero (S := S1024x512) hz, View.ld_unit_zero (S := S1x512) hz]
  obtain ⟨h1, h2, h3, h4⟩ := params_eq V c t
  rw [h1, h2, h3, h4]
  obtain ⟨-, -, e0, e1⟩ := index_facts2 t
  funext j
  obtain ⟨p, o, rfl⟩ : ∃ (p : Fin blockRows) (o : Fin wOut), j = ix2 p o := ⟨j 0, j 1, eq_ix2 j⟩
  have ht : t.val < nPoints := t.isLt
  have hn : t.val * blockRows + p.val < nRows := by have := p.isLt; omega
  rw [View.read_apply]
  have hemb : ((cfg2.win 5).blk t).view.emb (ix2 p o) = (ix2 (⟨t.val * blockRows + p.val, hn⟩ : Fin nRows) o : S4096x512.Idx) := by
    funext a
    apply Fin.ext
    match a with
    | ⟨0, _⟩ => show win2_5.index t (0 : Fin 2) * blockRows + 1 * p.val = t.val * blockRows + p.val; omega
    | ⟨1, _⟩ => show win2_5.index t (1 : Fin 2) * wOut + 1 * o.val = o.val; omega
  rw [hemb]
  show k2_pay1 (iblk2 V c 0 t) (V c main_v7) (V c main_v19) (V c main_v8) (V c main_v20) (ix2 p o) = _
  rw [pay2_apply]
  exact Cert.Spec.mlp_of_rows _ _ _ _ _ _ p ⟨t.val * blockRows + p.val, hn⟩ o fun k => rows2_apply V c t p k _ rfl

end Cert.KernelIdeal.HandValue

end
-- ==== Proof.KI.Mlp5Value.lean ====
import proofs.«177075_j77953656422623_1_alg».proof.Proof.KI.Mlp5
import proofs.«177075_j77953656422623_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

local notation "nRows" => 4096
local notation "blockRows" => 256
local notation "nPoints" => 16
local notation "wIn" => 1024
local notation "wHid" => 1024
local notation "wOut" => 4096

-- Entry by entry the stored value is two products into zero accumulators, each bias read at its one row, and a maximum against zero.
theorem pay5_apply (x : Vec Ideal S256x1024 .bf16) (w1 : Vec Ideal S1024x1024 .bf16) (b1 : Vec Ideal S1x1024 .f32)
    (w2 : Vec Ideal S1024x4096 .bf16) (b2 : Vec Ideal S1x4096 .f32) (p : Fin blockRows) (o : Fin wOut) :
    k5_pay1 x w1 b1 w2 b2 (ix2 p o)
      = Cert.Spec.mlp (N := blockRows) (K := wIn) (H := wHid) (O := wOut) x w1 (fun j => b1 (ix2 (0 : Fin 1) (j 0 : Fin wHid))) w2
          (fun j => b2 (ix2 (0 : Fin 1) (j 0 : Fin wOut))) (ix2 p o) := by
  rw [Cert.Spec.mlp_apply]
  unfold k5_pay1
  rw [addf_apply, RowLinear.matmul_zero_apply _ rfl rfl rfl rfl rfl rfl, broadcastTo_1b_ab_apply]
  simp only [shapeCast_self]
  congr 1
  refine Finset.sum_congr rfl fun h _ => ?_
  rw [truncf_apply, maximumf_apply, addf_apply, RowLinear.matmul_zero_apply _ rfl rfl rfl rfl rfl rfl, broadcastTo_1b_ab_apply,
    broadcast_apply, Cert.Spec.hidden_apply]
  show max _ (Ideal.ofBits .f32 0x00000000#32) * _ = _
  rw [Ideal.ofBits_zero_f32]

variable (V : (c : Dev nD) → (b : Ref sig .tc) → Buf (Elt Ideal) ((c : Thread nD τ).loc b))

private theorem hz : (![0, 0] : Fin 2 → Nat) = fun _ => 0 := funext fun a => by fin_cases a <;> rfl

theorem index_facts5 : ∀ t : Fin cfg5.N,
    win5_0.index t (0 : Fin 2) = t.val ∧ win5_0.index t (1 : Fin 2) = 0
    ∧ win5_5.index t (0 : Fin 2) = t.val ∧ win5_5.index t (1 : Fin 2) = 0 :=
  (by decide +kernel : ∀ t : Fin grid5.N, _)

private theorem index_zero : ∀ (t : Fin cfg5.N) (a : Fin 2),
    win5_1.index t a = 0 ∧ win5_2.index t a = 0 ∧ win5_3.index t a = 0 ∧ win5_4.index t a = 0 :=
  (by decide +kernel : ∀ (t : Fin grid5.N) (a : Fin 2), _)

theorem rows5_apply (c : Dev nD) (t : Fin cfg5.N) (p : Fin blockRows) (k : Fin wIn) (n : Fin nRows)
    (hn : n.val = t.val * blockRows + p.val) :
    (iblk5 V c 0 t : Vec Ideal S256x1024 .bf16) (ix2 p k) = (V c main_v26 : S4096x1024.Idx → EReal) (ix2 n k) := by
  obtain ⟨e0, e1, -⟩ := index_facts5 t
  unfold iblk5
  rw [View.read_apply]
  show (V c main_v26 : S4096x1024.Idx → EReal) _ = _
  congr 1
  funext a
  apply Fin.ext
  match a with
  | ⟨0, _⟩ => show win5_0.index t (0 : Fin 2) * blockRows + 1 * p.val = n.val; omega
  | ⟨1, _⟩ => show win5_0.index t (1 : Fin 2) * wIn + 1 * k.val = k.val; omega

-- A block taken at offset zero with the array's own extents is the array.
private theorem params_eq (c : Dev nD) (t : Fin cfg5.N) :
    (iblk5 V c 1 t : Vec Ideal S1024x1024 .bf16) = V c main_v9 ∧ (iblk5 V c 2 t : Vec Ideal S1x1024 .f32) = V c main_v28
    ∧ (iblk5 V c 3 t : Vec Ideal S1024x4096 .bf16) = V c main_v10 ∧ (iblk5 V c 4 t : Vec Ideal S1x4096 .f32) = V c main_v29 := by
  refine ⟨?_, ?_, ?_, ?_⟩ <;> funext y <;> unfold iblk5 <;> rw [View.read_apply]
  · exact congrArg (V c main_v9 : S1024x1024.Idx → EReal) (funext fun a => Fin.ext (win5_1.rect_emb_val_of_index_zero t a (index_zero t a).1 y))
  · exact congrArg (V c main_v28 : S1x1024.Idx → EReal) (funext fun a => Fin.ext (win5_2.rect_emb_val_of_index_zero t a (index_zero t a).2.1 y))
  · exact congrArg (V c main_v10 : S1024x4096.Idx → EReal) (funext fun a => Fin.ext (win5_3.rect_emb_val_of_index_zero t a (index_zero t a).2.2.1 y))
  · exact congrArg (V c main_v29 : S1x4096.Idx → EReal) (funext fun a => Fin.ext (win5_4.rect_emb_val_of_index_zero t a (index_zero t a).2.2.2 y))

theorem mem_blk5 (t : Fin cfg5.N) (i : S4096x4096.Idx) :
    i ∈ ((cfg5.win 5).blk t).view.set ↔ ∀ a : Fin 2, win5_5.index t a * S256x4096.size a ≤ (i a).val ∧ (i a).val < win5_5.index t a * S256x4096.size a + S256x4096.size a := by
  show i ∈ ((View.whole main_v30).slice (win5_5.rect t)).set ↔ _
  rw [View.set_slice_whole, Rect.mem_set_unit]
  exact Iff.rfl

theorem cover5 (i : S4096x4096.Idx) : ∃ t : Fin cfg5.N, (cfg5.win 5).flush t = true ∧ i ∈ ((cfg5.win 5).blk t).view.set := by
  have hi0 : (i 0).val < nRows := (i 0).isLt
  have hi1 : (i 1).val < wOut := (i 1).isLt
  have hq : (i 0).val / blockRows < nPoints := by omega
  refine ⟨⟨(i 0).val / blockRows, hq⟩, flush5_5 _, ?_⟩
  rw [mem_blk5]
  obtain ⟨-, -, e0, e1⟩ := index_facts5 ⟨(i 0).val / blockRows, hq⟩
  intro a
  match a with
  | ⟨0, _⟩ =>
    show win5_5.index _ (0 : Fin 2) * blockRows ≤ (i 0).val ∧ (i 0).val < win5_5.index _ (0 : Fin 2) * blockRows + blockRows
    rw [e0]
    show (i 0).val / blockRows * blockRows ≤ (i 0).val ∧ (i 0).val < (i 0).val / blockRows * blockRows + blockRows
    omega
  | ⟨1, _⟩ =>
    show win5_5.index _ (1 : Fin 2) * wOut ≤ (i 1).val ∧ (i 1).val < win5_5.index _ (1 : Fin 2) * wOut + wOut
    rw [e1]; omega

-- Row p of the perceptron of block t is row blockRows·t + p of the perceptron of the whole input, and the blocks cover the result.
theorem mlp5_value (c : Dev nD) :
    (dat5 V c).arrAt 5 cfg5.N
      = Cert.Spec.mlp (N := nRows) (K := wIn) (H := wHid) (O := wOut) (V c main_v26) (V c main_v9)
          (fun j => (V c main_v28 : S1x1024.Idx → EReal) (ix2 (0 : Fin 1) (j 0 : Fin wHid))) (V c main_v10)
          (fun j => (V c main_v29 : S1x4096.Idx → EReal) (ix2 (0 : Fin 1) (j 0 : Fin wOut))) := by
  refine (dat5 V c).arrAt_eq_of_cover 5 _ (fun t _ => ?_) cover5
  show (cfg5.win 5).cut (grid5.coords t) ((dat5 V c).after 5 t) = _
  rw [after5_5]
  unfold out5_5
  rw [View.canon_unit_zero hz]
  simp only [View.ld_unit_zero (S := S256x1024) hz, View.ld_unit_zero (S := S1024x1024) hz, View.ld_unit_zero (S := S1x1024) hz,
    View.ld_unit_zero (S := S1024x4096) hz, View.ld_unit_zero (S := S1x4096) hz]
  obtain ⟨h1, h2, h3, h4⟩ := params_eq V c t
  rw [h1, h2, h3, h4]
  obtain ⟨-, -, e0, e1⟩ := index_facts5 t
  funext j
  obtain ⟨p, o, rfl⟩ : ∃ (p : Fin blockRows) (o : Fin wOut), j = ix2 p o := ⟨j 0, j 1, eq_ix2 j⟩
  have ht : t.val < nPoints := t.isLt
  have hn : t.val * blockRows + p.val < nRows := by have := p.isLt; omega
  rw [View.read_apply]
  have hemb : ((cfg5.win 5).blk t).view.emb (ix2 p o) = (ix2 (⟨t.val * blockRows + p.val, hn⟩ : Fin nRows) o : S4096x4096.Idx) := by
    funext a
    apply Fin.ext
    match a with
    | ⟨0, _⟩ => show win5_5.index t (0 : Fin 2) * blockRows + 1 * p.val = t.val * blockRows + p.val; omega
    | ⟨1, _⟩ => show win5_5.index t (1 : Fin 2) * wOut + 1 * o.val = o.val; omega
  rw [hemb]
  show k5_pay1 (iblk5 V c 0 t) (V c main_v9) (V c main_v28) (V c main_v10) (V c main_v29) (ix2 p o) = _
  rw [pay5_apply]
  exact Cert.Spec.mlp_of_rows _ _ _ _ _ _ p ⟨t.val * blockRows + p.val, hn⟩ o fun k => rows5_apply V c t p k _ rfl

end Cert.KernelIdeal.HandValue

end
-- ==== Proof.KI.Mlp6Value.lean ====
import proofs.«177075_j77953656422623_1_alg».proof.Proof.KI.Mlp6
import proofs.«177075_j77953656422623_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

local notation "nRows" => 4096
local notation "blockRows" => 256
local notation "nPoints" => 16
local notation "wIn" => 1024
local notation "wHid" => 1024
local notation "wOut" => 4096

-- Entry by entry the stored value is two products into zero accumulators, each bias read at its one row, and a maximum against zero.
theorem pay6_apply (x : Vec Ideal S256x1024 .bf16) (w1 : Vec Ideal S1024x1024 .bf16) (b1 : Vec Ideal S1x1024 .f32)
    (w2 : Vec Ideal S1024x4096 .bf16) (b2 : Vec Ideal S1x4096 .f32) (p : Fin blockRows) (o : Fin wOut) :
    k6_pay1 x w1 b1 w2 b2 (ix2 p o)
      = Cert.Spec.mlp (N := blockRows) (K := wIn) (H := wHid) (O := wOut) x w1 (fun j => b1 (ix2 (0 : Fin 1) (j 0 : Fin wHid))) w2
          (fun j => b2 (ix2 (0 : Fin 1) (j 0 : Fin wOut))) (ix2 p o) := by
  rw [Cert.Spec.mlp_apply]
  unfold k6_pay1
  rw [addf_apply, RowLinear.matmul_zero_apply _ rfl rfl rfl rfl rfl rfl, broadcastTo_1b_ab_apply]
  simp only [shapeCast_self]
  congr 1
  refine Finset.sum_congr rfl fun h _ => ?_
  rw [truncf_apply, maximumf_apply, addf_apply, RowLinear.matmul_zero_apply _ rfl rfl rfl rfl rfl rfl, broadcastTo_1b_ab_apply,
    broadcast_apply, Cert.Spec.hidden_apply]
  show max _ (Ideal.ofBits .f32 0x00000000#32) * _ = _
  rw [Ideal.ofBits_zero_f32]

variable (V : (c : Dev nD) → (b : Ref sig .tc) → Buf (Elt Ideal) ((c : Thread nD τ).loc b))

private theorem hz : (![0, 0] : Fin 2 → Nat) = fun _ => 0 := funext fun a => by fin_cases a <;> rfl

theorem index_facts6 : ∀ t : Fin cfg6.N,
    win6_0.index t (0 : Fin 2) = t.val ∧ win6_0.index t (1 : Fin 2) = 0
    ∧ win6_5.index t (0 : Fin 2) = t.val ∧ win6_5.index t (1 : Fin 2) = 0 :=
  (by decide +kernel : ∀ t : Fin grid6.N, _)

private theorem index_zero : ∀ (t : Fin cfg6.N) (a : Fin 2),
    win6_1.index t a = 0 ∧ win6_2.index t a = 0 ∧ win6_3.index t a = 0 ∧ win6_4.index t a = 0 :=
  (by decide +kernel : ∀ (t : Fin grid6.N) (a : Fin 2), _)

theorem rows6_apply (c : Dev nD) (t : Fin cfg6.N) (p : Fin blockRows) (k : Fin wIn) (n : Fin nRows)
    (hn : n.val = t.val * blockRows + p.val) :
    (iblk6 V c 0 t : Vec Ideal S256x1024 .bf16) (ix2 p k) = (V c main_v27 : S4096x1024.Idx → EReal) (ix2 n k) := by
  obtain ⟨e0, e1, -⟩ := index_facts6 t
  unfold iblk6
  rw [View.read_apply]
  show (V c main_v27 : S4096x1024.Idx → EReal) _ = _
  congr 1
  funext a
  apply Fin.ext
  match a with
  | ⟨0, _⟩ => show win6_0.index t (0 : Fin 2) * blockRows + 1 * p.val = n.val; omega
  | ⟨1, _⟩ => show win6_0.index t (1 : Fin 2) * wIn + 1 * k.val = k.val; omega

-- A block taken at offset zero with the array's own extents is the array.
private theorem params_eq (c : Dev nD) (t : Fin cfg6.N) :
    (iblk6 V c 1 t : Vec Ideal S1024x1024 .bf16) = V c main_v11 ∧ (iblk6 V c 2 t : Vec Ideal S1x1024 .f32) = V c main_v31
    ∧ (iblk6 V c 3 t : Vec Ideal S1024x4096 .bf16) = V c main_v12 ∧ (iblk6 V c 4 t : Vec Ideal S1x4096 .f32) = V c main_v32 := by
  refine ⟨?_, ?_, ?_, ?_⟩ <;> funext y <;> unfold iblk6 <;> rw [View.read_apply]
  · exact congrArg (V c main_v11 : S1024x1024.Idx → EReal) (funext fun a => Fin.ext (win6_1.rect_emb_val_of_index_zero t a (index_zero t a).1 y))
  · exact congrArg (V c main_v31 : S1x1024.Idx → EReal) (funext fun a => Fin.ext (win6_2.rect_emb_val_of_index_zero t a (index_zero t a).2.1 y))
  · exact congrArg (V c main_v12 : S1024x4096.Idx → EReal) (funext fun a => Fin.ext (win6_3.rect_emb_val_of_index_zero t a (index_zero t a).2.2.1 y))
  · exact congrArg (V c main_v32 : S1x4096.Idx → EReal) (funext fun a => Fin.ext (win6_4.rect_emb_val_of_index_zero t a (index_zero t a).2.2.2 y))

theorem mem_blk6 (t : Fin cfg6.N) (i : S4096x4096.Idx) :
    i ∈ ((cfg6.win 5).blk t).view.set ↔ ∀ a : Fin 2, win6_5.index t a * S256x4096.size a ≤ (i a).val ∧ (i a).val < win6_5.index t a * S256x4096.size a + S256x4096.size a := by
  show i ∈ ((View.whole main_v33).slice (win6_5.rect t)).set ↔ _
  rw [View.set_slice_whole, Rect.mem_set_unit]
  exact Iff.rfl

theorem cover6 (i : S4096x4096.Idx) : ∃ t : Fin cfg6.N, (cfg6.win 5).flush t = true ∧ i ∈ ((cfg6.win 5).blk t).view.set := by
  have hi0 : (i 0).val < nRows := (i 0).isLt
  have hi1 : (i 1).val < wOut := (i 1).isLt
  have hq : (i 0).val / blockRows < nPoints := by omega
  refine ⟨⟨(i 0).val / blockRows, hq⟩, flush6_5 _, ?_⟩
  rw [mem_blk6]
  obtain ⟨-, -, e0, e1⟩ := index_facts6 ⟨(i 0).val / blockRows, hq⟩
  intro a
  match a with
  | ⟨0, _⟩ =>
    show win6_5.index _ (0 : Fin 2) * blockRows ≤ (i 0).val ∧ (i 0).val < win6_5.index _ (0 : Fin 2) * blockRows + blockRows
    rw [e0]
    show (i 0).val / blockRows * blockRows ≤ (i 0).val ∧ (i 0).val < (i 0).val / blockRows * blockRows + blockRows
    omega
  | ⟨1, _⟩ =>
    show win6_5.index _ (1 : Fin 2) * wOut ≤ (i 1).val ∧ (i 1).val < win6_5.index _ (1 : Fin 2) * wOut + wOut
    rw [e1]; omega

-- Row p of the perceptron of block t is row blockRows·t + p of the perceptron of the whole input, and the blocks cover the result.
theorem mlp6_value (c : Dev nD) :
    (dat6 V c).arrAt 5 cfg6.N
      = Cert.Spec.mlp (N := nRows) (K := wIn) (H := wHid) (O := wOut) (V c main_v27) (V c main_v11)
          (fun j => (V c main_v31 : S1x1024.Idx → EReal) (ix2 (0 : Fin 1) (j 0 : Fin wHid))) (V c main_v12)
          (fun j => (V c main_v32 : S1x4096.Idx → EReal) (ix2 (0 : Fin 1) (j 0 : Fin wOut))) := by
  refine (dat6 V c).arrAt_eq_of_cover 5 _ (fun t _ => ?_) cover6
  show (cfg6.win 5).cut (grid6.coords t) ((dat6 V c).after 5 t) = _
  rw [after6_5]
  unfold out6_5
  rw [View.canon_unit_zero hz]
  simp only [View.ld_unit_zero (S := S256x1024) hz, View.ld_unit_zero (S := S1024x1024) hz, View.ld_unit_zero (S := S1x1024) hz,
    View.ld_unit_zero (S := S1024x4096) hz, View.ld_unit_zero (S := S1x4096) hz]
  obtain ⟨h1, h2, h3, h4⟩ := params_eq V c t
  rw [h1, h2, h3, h4]
  obtain ⟨-, -, e0, e1⟩ := index_facts6 t
  funext j
  obtain ⟨p, o, rfl⟩ : ∃ (p : Fin blockRows) (o : Fin wOut), j = ix2 p o := ⟨j 0, j 1, eq_ix2 j⟩
  have ht : t.val < nPoints := t.isLt
  have hn : t.val * blockRows + p.val < nRows := by have := p.isLt; omega
  rw [View.read_apply]
  have hemb : ((cfg6.win 5).blk t).view.emb (ix2 p o) = (ix2 (⟨t.val * blockRows + p.val, hn⟩ : Fin nRows) o : S4096x4096.Idx) := by
    funext a
    apply Fin.ext
    match a with
    | ⟨0, _⟩ => show win6_5.index t (0 : Fin 2) * blockRows + 1 * p.val = t.val * blockRows + p.val; omega
    | ⟨1, _⟩ => show win6_5.index t (1 : Fin 2) * wOut + 1 * o.val = o.val; omega
  rw [hemb]
  show k6_pay1 (iblk6 V c 0 t) (V c main_v11) (V c main_v31) (V c main_v12) (V c main_v32) (ix2 p o) = _
  rw [pay6_apply]
  exact Cert.Spec.mlp_of_rows _ _ _ _ _ _ p ⟨t.val * blockRows + p.val, hn⟩ o fun k => rows6_apply V c t p k _ rfl

end Cert.KernelIdeal.HandValue

end
-- ==== Proof.LibColLinear.lean ====
import Idealize.ShloMosaic.PureOps.Ideal.Laws
import Idealize.ShloMosaic.Lib.ValueIdx

noncomputable section

namespace Idealize.ShloMosaic.ColLinear

open Idealize.ShloMosaic Idealize.ShloMosaic.ValueIdx

section Record
variable {K N M : Nat}

private abbrev ddims (wf : DotDims.WF ⟨2, ![K, N]⟩ ⟨2, ![K, M]⟩ ⟨2, ![N, M]⟩ [0] [0] [1] [1] [] []) :
    DotDims ⟨2, ![K, N]⟩ ⟨2, ![K, M]⟩ ⟨2, ![N, M]⟩ :=
  { lhsContracting := [0], rhsContracting := [0], lhsNonContracting := [1], rhsNonContracting := [1],
    lhsBatch := [], rhsBatch := [], wf := wf }

variable (wf : DotDims.WF ⟨2, ![K, N]⟩ ⟨2, ![K, M]⟩ ⟨2, ![N, M]⟩ [0] [0] [1] [1] [] [])
  (j : (⟨2, ![N, M]⟩ : Shape).Idx) (k : (ddims wf).contr.Idx)

private theorem coord_congr (p q : Nat) (hp : p < 2) (hq : q < 2) (h : p = q) :
    (j ⟨p, hp⟩).val = (j ⟨q, hq⟩).val := by subst h; rfl

private abbrev k0 : Fin ((ddims wf).contr.size ⟨0, by rw [(ddims wf).rank_contr]; exact Nat.one_pos⟩) :=
  k ⟨0, by rw [(ddims wf).rank_contr]; exact Nat.one_pos⟩

private theorem lhs_axis0 : ((ddims wf).lhsIdx j k 0).val = (k0 wf k).val :=
  (ddims wf).lhsIdx_val_of_single (cl := 0) rfl j k

private theorem lhs_axis1 : ((ddims wf).lhsIdx j k 1).val = (j 0).val := by
  unfold DotDims.lhsIdx
  rw [dif_neg List.not_mem_nil, dif_pos (show (1 : Fin 2) ∈ [(1 : Fin 2)] from List.mem_singleton.mpr rfl)]
  simp only [Fin.val_cast]
  exact coord_congr j _ _ _ _ (by simp)

private theorem rhs_axis0 : ((ddims wf).rhsIdx j k 0).val = (k0 wf k).val :=
  (ddims wf).rhsIdx_val_of_single (cr := 0) rfl j k

private theorem rhs_axis1 : ((ddims wf).rhsIdx j k 1).val = (j 1).val := by
  unfold DotDims.rhsIdx
  rw [dif_neg List.not_mem_nil, dif_pos (show (1 : Fin 2) ∈ [(1 : Fin 2)] from List.mem_singleton.mpr rfl)]
  simp only [Fin.val_cast]
  exact coord_congr j _ _ _ _ (by simp)

end Record

theorem contraction_sum {K N M : Nat} (d : DotDims ⟨2, ![K, N]⟩ ⟨2, ![K, M]⟩ ⟨2, ![N, M]⟩)
    (hlc : d.lhsContracting = [0]) (hrc : d.rhsContracting = [0]) (hln : d.lhsNonContracting = [1])
    (hrn : d.rhsNonContracting = [1]) (hlb : d.lhsBatch = []) (hrb : d.rhsBatch = [])
    (l : (⟨2, ![K, N]⟩ : Shape).Idx → EReal) (r : (⟨2, ![K, M]⟩ : Shape).Idx → EReal) (n : Fin N) (c : Fin M) :
    ∑ k : d.contr.Idx, l (d.lhsIdx (ix2 n c) k) * r (d.rhsIdx (ix2 n c) k)
      = ∑ k : Fin K, l (ix2 k n) * r (ix2 k c) := by
  obtain ⟨lc, rc, ln, rn, lb, rb, wf⟩ := d
  simp only at hlc hrc hln hrn hlb hrb
  subst hlc hrc hln hrn hlb hrb
  rw [← Equiv.sum_comp (contrEquiv1 (ddims wf) K rfl rfl).symm]
  refine Finset.sum_congr rfl fun k _ => ?_
  have hk := contrEquiv1_symm_val (ddims wf) K rfl rfl k
  have el : (ddims wf).lhsIdx (ix2 n c) ((contrEquiv1 (ddims wf) K rfl rfl).symm k) = ix2 k n := by
    funext a; refine Fin.ext ?_
    match a with
    | ⟨0, _⟩ => exact (lhs_axis0 wf _ _).trans hk
    | ⟨1, _⟩ => exact lhs_axis1 wf _ _
  have er : (ddims wf).rhsIdx (ix2 n c) ((contrEquiv1 (ddims wf) K rfl rfl).symm k) = ix2 k c := by
    funext a; refine Fin.ext ?_
    match a with
    | ⟨0, _⟩ => exact (rhs_axis0 wf _ _).trans hk
    | ⟨1, _⟩ => exact rhs_axis1 wf _ _
  rw [el, er]

theorem matmul_zero_apply {K N M : Nat} {φ₁ φ₂ : FTy} (d : DotDims ⟨2, ![K, N]⟩ ⟨2, ![K, M]⟩ ⟨2, ![N, M]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (l : FVec Ideal ⟨2, ![K, N]⟩ φ₁) (r : FVec Ideal ⟨2, ![K, M]⟩ φ₂)
    (n : Fin N) (c : Fin M) :
    matmul d prec l r (constant ⟨2, ![N, M]⟩ .f32 0x00000000#32) (ix2 n c) = ∑ k : Fin K, l (ix2 k n) * r (ix2 k c) := by
  show FloatOps.matmul d prec l r (constant ⟨2, ![N, M]⟩ .f32 0x00000000#32) (ix2 n c) = _
  rw [Ideal.matmul_constant_zero_apply]
  exact contraction_sum d hlc hrc hln hrn hlb hrb l r n c

end Idealize.ShloMosaic.ColLinear

end
-- ==== Proof.KI.Pool3Value.lean ====
import proofs.«177075_j77953656422623_1_alg».proof.Proof.KI.Pool3
import proofs.«177075_j77953656422623_1_alg».proof.Proof.Spec
import proofs.«177075_j77953656422623_1_alg».proof.Proof.LibColLinear
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem origin3 : (![0, 0] : Fin 2 → Nat) = fun _ => 0 := funext fun a => by fin_cases a <;> rfl

theorem poolZero3_apply (p o : Fin 512) : (poolZero3 (F := Ideal) (ix2 p o) : EReal) = 0 := by
  unfold poolZero3
  rw [View.canon_unit_zero origin3]
  unfold k3_pay1
  simp only [shapeCast_self]
  rw [broadcast_apply]
  exact Ideal.ofBits_zero_f32

-- One step adds at (p, o) the sum, over the rows of the two tiles, of column p of a against column o of b.
theorem poolAcc3_apply (a : Vec Ideal S2048x512 .bf16) (b : Vec Ideal S2048x512 .f32) (s : Vec Ideal S512x512 .f32)
    (p o : Fin 512) :
    (poolAcc3 a b s (ix2 p o) : EReal) = (s (ix2 p o) : EReal) + ∑ r : Fin 2048, (a (ix2 r p) : EReal) * (b (ix2 r o) : EReal) := by
  unfold poolAcc3
  rw [View.canon_unit_zero origin3]
  simp only [View.ld_unit_zero (S := S2048x512) origin3, View.ld_unit_zero (S := S512x512) origin3]
  unfold k3_pay2
  simp only [shapeCast_self]
  rw [addf_apply, ColLinear.matmul_zero_apply _ rfl rfl rfl rfl rfl rfl]
  rfl

variable (V : (c : Dev nD) → (b : Ref sig .tc) → Buf (Elt Ideal) ((c : Thread nD τ).loc b))

abbrev arrA3 (c : Dev nD) : Cert.Spec.Mat (8 * 2048) 4096 := V c main_v0
abbrev arrB3 (c : Dev nD) : Cert.Spec.Mat (8 * 2048) 512 := V c main_v15

theorem index_facts3 : ∀ t : Fin grid3.N,
    win3_0.index t (0 : Fin 2) = t.val % 8 ∧ win3_0.index t (1 : Fin 2) = t.val / 8
    ∧ win3_1.index t (0 : Fin 2) = t.val % 8 ∧ win3_1.index t (1 : Fin 2) = 0
    ∧ win3_2.index t (0 : Fin 2) = t.val / 8 ∧ win3_2.index t (1 : Fin 2) = 0 := by decide +kernel

theorem tileA3_apply (c : Dev nD) (t : Fin cfg3.N) (r : Fin 2048) (p : Fin 512) (n : Fin (8 * 2048)) (q : Fin 4096)
    (hn : n.val = t.val % 8 * 2048 + r.val) (hq : q.val = t.val / 8 * 512 + p.val) :
    ((iblk3 V c 0 t : Vec Ideal S2048x512 .bf16) (ix2 r p) : EReal) = arrA3 V c (ix2 n q) := by
  obtain ⟨e0, e1, -⟩ := index_facts3 t
  unfold iblk3
  rw [View.read_apply]
  show (V c main_v0 : S16384x4096.Idx → EReal) _ = (V c main_v0 : S16384x4096.Idx → EReal) (ix2 (n : Fin 16384) q)
  congr 1
  funext x
  apply Fin.ext
  match x with
  | ⟨0, _⟩ => show win3_0.index t (0 : Fin 2) * 2048 + 1 * r.val = n.val; omega
  | ⟨1, _⟩ => show win3_0.index t (1 : Fin 2) * 512 + 1 * p.val = q.val; omega

theorem tileB3_apply (c : Dev nD) (t : Fin cfg3.N) (r : Fin 2048) (o : Fin 512) (n : Fin (8 * 2048))
    (hn : n.val = t.val % 8 * 2048 + r.val) :
    ((iblk3 V c 1 t : Vec Ideal S2048x512 .f32) (ix2 r o) : EReal) = arrB3 V c (ix2 n o) := by
  obtain ⟨-, -, e0, e1, -⟩ := index_facts3 t
  unfold iblk3
  rw [View.read_apply]
  show (V c main_v15 : S16384x512.Idx → EReal) _ = (V c main_v15 : S16384x512.Idx → EReal) (ix2 (n : Fin 16384) o)
  congr 1
  funext x
  apply Fin.ext
  match x with
  | ⟨0, _⟩ => show win3_1.index t (0 : Fin 2) * 2048 + 1 * r.val = n.val; omega
  | ⟨1, _⟩ => show win3_1.index t (1 : Fin 2) * 512 + 1 * o.val = o.val; omega

-- One more group of rows joins the partial sum.
theorem step3 (c : Dev nD) (t : Fin cfg3.N) (s : Vec Ideal S512x512 .f32) (p o : Fin 512) (i : Fin 4096)
    (hi : i.val = t.val / 8 * 512 + p.val)
    (hs : (s (ix2 p o) : EReal) = Cert.Spec.poolUpTo (G := 8) (T := 2048) (arrA3 V c) (arrB3 V c) (t.val % 8) (ix2 i o)) :
    (poolAcc3 (iblk3 V c 0 t) (iblk3 V c 1 t) s (ix2 p o) : EReal)
      = Cert.Spec.poolUpTo (G := 8) (T := 2048) (arrA3 V c) (arrB3 V c) (t.val % 8 + 1) (ix2 i o) := by
  have hg : t.val % 8 < 8 := Nat.mod_lt _ (by decide)
  rw [poolAcc3_apply, Cert.Spec.poolUpTo_succ _ _ _ hg, hs]
  congr 1
  refine Finset.sum_congr rfl fun r _ => ?_
  rw [tileA3_apply V c t r p ⟨t.val % 8 * 2048 + r.val, Cert.Spec.group_row_lt hg r.isLt⟩ i rfl hi,
    tileB3_apply V c t r o ⟨t.val % 8 * 2048 + r.val, Cert.Spec.group_row_lt hg r.isLt⟩ rfl]

-- By induction on the point: after point n the accumulator holds its band's partial sum over the groups 0 … n % 8.
theorem acc3_apply (c : Dev nD) : ∀ (n : ℕ) (hn : n < cfg3.N) (p o : Fin 512) (i : Fin 4096), i.val = n / 8 * 512 + p.val →
    ((outsAt3 V c n hn : Vec Ideal S512x512 .f32) (ix2 p o) : EReal)
      = Cert.Spec.poolUpTo (G := 8) (T := 2048) (arrA3 V c) (arrB3 V c) (n % 8 + 1) (ix2 i o) := by
  intro n
  induction n using Nat.strong_induction_on with
  | _ n ih =>
    intro hn p o i hi
    by_cases h : n % 8 = 0
    · refine (congrFun (outsAt3_first V c ⟨n, hn⟩ h) (ix2 p o)).trans (step3 V c ⟨n, hn⟩ poolZero3 p o i hi ?_)
      rw [poolZero3_apply]
      show (0 : EReal) = Cert.Spec.poolUpTo (G := 8) (T := 2048) (arrA3 V c) (arrB3 V c) (n % 8) (ix2 i o)
      rw [h, Cert.Spec.poolUpTo_zero]
    · refine (congrFun (outsAt3_next V c ⟨n, hn⟩ h) (ix2 p o)).trans (step3 V c ⟨n, hn⟩ _ p o i hi ?_)
      have hs := ih (n - 1) (by omega) (Nat.lt_of_le_of_lt (Nat.sub_le _ _) hn) p o i (by omega)
      rwa [show (n - 1) % 8 + 1 = n % 8 by omega] at hs

-- A band's last point writes the sum over all eight groups, which is the sum over all rows.
theorem flushed3_eq (c : Dev nD) (t : Fin cfg3.N) (hf : (cfg3.win 2).flush t = true) :
    (dat3 V c).flushed 2 t = ((cfg3.win 2).blk t).view.read (Elt Ideal) (Cert.Spec.pool (arrA3 V c) (arrB3 V c)) := by
  have h7 : t.val % 8 = 7 := (flush3_2 t).mp hf
  obtain ⟨-, -, -, -, e0, e1⟩ := index_facts3 t
  show (cfg3.win 2).cut (grid3.coords t) ((dat3 V c).after 2 t) = _
  rw [after3_2]
  funext j
  obtain ⟨p, o, rfl⟩ : ∃ (p : Fin 512) (o : Fin 512), j = ix2 p o := ⟨j 0, j 1, eq_ix2 j⟩
  have ht : t.val < 64 := lt_of_lt_of_eq t.isLt N_3
  have hrow : t.val / 8 * 512 + p.val < 4096 := by have := p.isLt; omega
  rw [View.read_apply]
  have hemb : ((cfg3.win 2).blk t).view.emb (ix2 p o) = (ix2 (⟨t.val / 8 * 512 + p.val, hrow⟩ : Fin 4096) o : S4096x512.Idx) := by
    funext x
    apply Fin.ext
    match x with
    | ⟨0, _⟩ => show win3_2.index t (0 : Fin 2) * 512 + 1 * p.val = t.val / 8 * 512 + p.val; omega
    | ⟨1, _⟩ => show win3_2.index t (1 : Fin 2) * 512 + 1 * o.val = o.val; omega
  rw [hemb, Cert.Spec.pool_eq_poolUpTo]
  refine (acc3_apply V c t.val t.isLt p o ⟨t.val / 8 * 512 + p.val, hrow⟩ rfl).trans ?_
  rw [h7]
  rfl

theorem mem_tile3 (t : Fin cfg3.N) (i : S4096x512.Idx) :
    i ∈ ((cfg3.win 2).blk t).view.set ↔ ∀ a : Fin 2, win3_2.index t a * S512x512.size a ≤ (i a).val ∧ (i a).val < win3_2.index t a * S512x512.size a + S512x512.size a := by
  show i ∈ ((View.whole main_v22).slice (win3_2.rect t)).set ↔ _
  rw [View.set_slice_whole, Rect.mem_set_unit]
  exact Iff.rfl

-- Row i of the result lies in band i / 512, which the point i / 512 * 8 + 7 writes.
theorem pool3_value (c : Dev nD) :
    (dat3 V c).arrAt 2 cfg3.N = Cert.Spec.pool (V c main_v0) (V c main_v15) :=
  (dat3 V c).arrAt_eq_of_cover 2 (Cert.Spec.pool (arrA3 V c) (arrB3 V c)) (flushed3_eq V c) fun i => by
    have hi0 : (i 0).val < 4096 := (i 0).isLt
    have hi1 : (i 1).val < 512 := (i 1).isLt
    have hN : cfg3.N = 64 := N_3
    have hlt : (i 0).val / 512 * 8 + 7 < cfg3.N := by rw [hN]; omega
    obtain ⟨-, -, -, -, e0, e1⟩ := index_facts3 ⟨(i 0).val / 512 * 8 + 7, hlt⟩
    refine ⟨⟨(i 0).val / 512 * 8 + 7, hlt⟩, (flush3_2 _).mpr (by show ((i 0).val / 512 * 8 + 7) % 8 = 7; omega), ?_⟩
    rw [mem_tile3]
    intro a
    match a with
    | ⟨0, _⟩ =>
      show win3_2.index ⟨(i 0).val / 512 * 8 + 7, hlt⟩ (0 : Fin 2) * 512 ≤ (i 0).val ∧ (i 0).val < win3_2.index ⟨(i 0).val / 512 * 8 + 7, hlt⟩ (0 : Fin 2) * 512 + 512
      rw [e0]; show ((i 0).val / 512 * 8 + 7) / 8 * 512 ≤ (i 0).val ∧ (i 0).val < ((i 0).val / 512 * 8 + 7) / 8 * 512 + 512; omega
    | ⟨1, _⟩ =>
      show win3_2.index ⟨(i 0).val / 512 * 8 + 7, hlt⟩ (1 : Fin 2) * 512 ≤ (i 1).val ∧ (i 1).val < win3_2.index ⟨(i 0).val / 512 * 8 + 7, hlt⟩ (1 : Fin 2) * 512 + 512
      rw [e1]; omega

end Cert.KernelIdeal.HandValue

end
-- ==== Proof.KI.Pool4Value.lean ====
import proofs.«177075_j77953656422623_1_alg».proof.Proof.KI.Pool4
import proofs.«177075_j77953656422623_1_alg».proof.Proof.Spec
import proofs.«177075_j77953656422623_1_alg».proof.Proof.LibColLinear
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem origin4 : (![0, 0] : Fin 2 → Nat) = fun _ => 0 := funext fun a => by fin_cases a <;> rfl

theorem poolZero4_apply (p o : Fin 512) : (poolZero4 (F := Ideal) (ix2 p o) : EReal) = 0 := by
  unfold poolZero4
  rw [View.canon_unit_zero origin4]
  unfold k4_pay1
  simp only [shapeCast_self]
  rw [broadcast_apply]
  exact Ideal.ofBits_zero_f32

-- One step adds at (p, o) the sum, over the rows of the two tiles, of column p of a against column o of b.
theorem poolAcc4_apply (a : Vec Ideal S2048x512 .bf16) (b : Vec Ideal S2048x512 .f32) (s : Vec Ideal S512x512 .f32)
    (p o : Fin 512) :
    (poolAcc4 a b s (ix2 p o) : EReal) = (s (ix2 p o) : EReal) + ∑ r : Fin 2048, (a (ix2 r p) : EReal) * (b (ix2 r o) : EReal) := by
  unfold poolAcc4
  rw [View.canon_unit_zero origin4]
  simp only [View.ld_unit_zero (S := S2048x512) origin4, View.ld_unit_zero (S := S512x512) origin4]
  unfold k4_pay2
  simp only [shapeCast_self]
  rw [addf_apply, ColLinear.matmul_zero_apply _ rfl rfl rfl rfl rfl rfl]
  rfl

variable (V : (c : Dev nD) → (b : Ref sig .tc) → Buf (Elt Ideal) ((c : Thread nD τ).loc b))

abbrev arrA4 (c : Dev nD) : Cert.Spec.Mat (8 * 2048) 4096 := V c main_v1
abbrev arrB4 (c : Dev nD) : Cert.Spec.Mat (8 * 2048) 512 := V c main_v18

theorem index_facts4 : ∀ t : Fin grid4.N,
    win4_0.index t (0 : Fin 2) = t.val % 8 ∧ win4_0.index t (1 : Fin 2) = t.val / 8
    ∧ win4_1.index t (0 : Fin 2) = t.val % 8 ∧ win4_1.index t (1 : Fin 2) = 0
    ∧ win4_2.index t (0 : Fin 2) = t.val / 8 ∧ win4_2.index t (1 : Fin 2) = 0 := by decide +kernel

theorem tileA4_apply (c : Dev nD) (t : Fin cfg4.N) (r : Fin 2048) (p : Fin 512) (n : Fin (8 * 2048)) (q : Fin 4096)
    (hn : n.val = t.val % 8 * 2048 + r.val) (hq : q.val = t.val / 8 * 512 + p.val) :
    ((iblk4 V c 0 t : Vec Ideal S2048x512 .bf16) (ix2 r p) : EReal) = arrA4 V c (ix2 n q) := by
  obtain ⟨e0, e1, -⟩ := index_facts4 t
  unfold iblk4
  rw [View.read_apply]
  show (V c main_v1 : S16384x4096.Idx → EReal) _ = (V c main_v1 : S16384x4096.Idx → EReal) (ix2 (n : Fin 16384) q)
  congr 1
  funext x
  apply Fin.ext
  match x with
  | ⟨0, _⟩ => show win4_0.index t (0 : Fin 2) * 2048 + 1 * r.val = n.val; omega
  | ⟨1, _⟩ => show win4_0.index t (1 : Fin 2) * 512 + 1 * p.val = q.val; omega

theorem tileB4_apply (c : Dev nD) (t : Fin cfg4.N) (r : Fin 2048) (o : Fin 512) (n : Fin (8 * 2048))
    (hn : n.val = t.val % 8 * 2048 + r.val) :
    ((iblk4 V c 1 t : Vec Ideal S2048x512 .f32) (ix2 r o) : EReal) = arrB4 V c (ix2 n o) := by
  obtain ⟨-, -, e0, e1, -⟩ := index_facts4 t
  unfold iblk4
  rw [View.read_apply]
  show (V c main_v18 : S16384x512.Idx → EReal) _ = (V c main_v18 : S16384x512.Idx → EReal) (ix2 (n : Fin 16384) o)
  congr 1
  funext x
  apply Fin.ext
  match x with
  | ⟨0, _⟩ => show win4_1.index t (0 : Fin 2) * 2048 + 1 * r.val = n.val; omega
  | ⟨1, _⟩ => show win4_1.index t (1 : Fin 2) * 512 + 1 * o.val = o.val; omega

-- One more group of rows joins the partial sum.
theorem step4 (c : Dev nD) (t : Fin cfg4.N) (s : Vec Ideal S512x512 .f32) (p o : Fin 512) (i : Fin 4096)
    (hi : i.val = t.val / 8 * 512 + p.val)
    (hs : (s (ix2 p o) : EReal) = Cert.Spec.poolUpTo (G := 8) (T := 2048) (arrA4 V c) (arrB4 V c) (t.val % 8) (ix2 i o)) :
    (poolAcc4 (iblk4 V c 0 t) (iblk4 V c 1 t) s (ix2 p o) : EReal)
      = Cert.Spec.poolUpTo (G := 8) (T := 2048) (arrA4 V c) (arrB4 V c) (t.val % 8 + 1) (ix2 i o) := by
  have hg : t.val % 8 < 8 := Nat.mod_lt _ (by decide)
  rw [poolAcc4_apply, Cert.Spec.poolUpTo_succ _ _ _ hg, hs]
  congr 1
  refine Finset.sum_congr rfl fun r _ => ?_
  rw [tileA4_apply V c t r p ⟨t.val % 8 * 2048 + r.val, Cert.Spec.group_row_lt hg r.isLt⟩ i rfl hi,
    tileB4_apply V c t r o ⟨t.val % 8 * 2048 + r.val, Cert.Spec.group_row_lt hg r.isLt⟩ rfl]

-- By induction on the point: after point n the accumulator holds its band's partial sum over the groups 0 … n % 8.
theorem acc4_apply (c : Dev nD) : ∀ (n : ℕ) (hn : n < cfg4.N) (p o : Fin 512) (i : Fin 4096), i.val = n / 8 * 512 + p.val →
    ((outsAt4 V c n hn : Vec Ideal S512x512 .f32) (ix2 p o) : EReal)
      = Cert.Spec.poolUpTo (G := 8) (T := 2048) (arrA4 V c) (arrB4 V c) (n % 8 + 1) (ix2 i o) := by
  intro n
  induction n using Nat.strong_induction_on with
  | _ n ih =>
    intro hn p o i hi
    by_cases h : n % 8 = 0
    · refine (congrFun (outsAt4_first V c ⟨n, hn⟩ h) (ix2 p o)).trans (step4 V c ⟨n, hn⟩ poolZero4 p o i hi ?_)
      rw [poolZero4_apply]
      show (0 : EReal) = Cert.Spec.poolUpTo (G := 8) (T := 2048) (arrA4 V c) (arrB4 V c) (n % 8) (ix2 i o)
      rw [h, Cert.Spec.poolUpTo_zero]
    · refine (congrFun (outsAt4_next V c ⟨n, hn⟩ h) (ix2 p o)).trans (step4 V c ⟨n, hn⟩ _ p o i hi ?_)
      have hs := ih (n - 1) (by omega) (Nat.lt_of_le_of_lt (Nat.sub_le _ _) hn) p o i (by omega)
      rwa [show (n - 1) % 8 + 1 = n % 8 by omega] at hs

-- A band's last point writes the sum over all eight groups, which is the sum over all rows.
theorem flushed4_eq (c : Dev nD) (t : Fin cfg4.N) (hf : (cfg4.win 2).flush t = true) :
    (dat4 V c).flushed 2 t = ((cfg4.win 2).blk t).view.read (Elt Ideal) (Cert.Spec.pool (arrA4 V c) (arrB4 V c)) := by
  have h7 : t.val % 8 = 7 := (flush4_2 t).mp hf
  obtain ⟨-, -, -, -, e0, e1⟩ := index_facts4 t
  show (cfg4.win 2).cut (grid4.coords t) ((dat4 V c).after 2 t) = _
  rw [after4_2]
  funext j
  obtain ⟨p, o, rfl⟩ : ∃ (p : Fin 512) (o : Fin 512), j = ix2 p o := ⟨j 0, j 1, eq_ix2 j⟩
  have ht : t.val < 64 := lt_of_lt_of_eq t.isLt N_4
  have hrow : t.val / 8 * 512 + p.val < 4096 := by have := p.isLt; omega
  rw [View.read_apply]
  have hemb : ((cfg4.win 2).blk t).view.emb (ix2 p o) = (ix2 (⟨t.val / 8 * 512 + p.val, hrow⟩ : Fin 4096) o : S4096x512.Idx) := by
    funext x
    apply Fin.ext
    match x with
    | ⟨0, _⟩ => show win4_2.index t (0 : Fin 2) * 512 + 1 * p.val = t.val / 8 * 512 + p.val; omega
    | ⟨1, _⟩ => show win4_2.index t (1 : Fin 2) * 512 + 1 * o.val = o.val; omega
  rw [hemb, Cert.Spec.pool_eq_poolUpTo]
  refine (acc4_apply V c t.val t.isLt p o ⟨t.val / 8 * 512 + p.val, hrow⟩ rfl).trans ?_
  rw [h7]
  rfl

theorem mem_tile4 (t : Fin cfg4.N) (i : S4096x512.Idx) :
    i ∈ ((cfg4.win 2).blk t).view.set ↔ ∀ a : Fin 2, win4_2.index t a * S512x512.size a ≤ (i a).val ∧ (i a).val < win4_2.index t a * S512x512.size a + S512x512.size a := by
  show i ∈ ((View.whole main_v23).slice (win4_2.rect t)).set ↔ _
  rw [View.set_slice_whole, Rect.mem_set_unit]
  exact Iff.rfl

-- Row i of the result lies in band i / 512, which the point i / 512 * 8 + 7 writes.
theorem pool4_value (c : Dev nD) :
    (dat4 V c).arrAt 2 cfg4.N = Cert.Spec.pool (V c main_v1) (V c main_v18) :=
  (dat4 V c).arrAt_eq_of_cover 2 (Cert.Spec.pool (arrA4 V c) (arrB4 V c)) (flushed4_eq V c) fun i => by
    have hi0 : (i 0).val < 4096 := (i 0).isLt
    have hi1 : (i 1).val < 512 := (i 1).isLt
    have hN : cfg4.N = 64 := N_4
    have hlt : (i 0).val / 512 * 8 + 7 < cfg4.N := by rw [hN]; omega
    obtain ⟨-, -, -, -, e0, e1⟩ := index_facts4 ⟨(i 0).val / 512 * 8 + 7, hlt⟩
    refine ⟨⟨(i 0).val / 512 * 8 + 7, hlt⟩, (flush4_2 _).mpr (by show ((i 0).val / 512 * 8 + 7) % 8 = 7; omega), ?_⟩
    rw [mem_tile4]
    intro a
    match a with
    | ⟨0, _⟩ =>
      show win4_2.index ⟨(i 0).val / 512 * 8 + 7, hlt⟩ (0 : Fin 2) * 512 ≤ (i 0).val ∧ (i 0).val < win4_2.index ⟨(i 0).val / 512 * 8 + 7, hlt⟩ (0 : Fin 2) * 512 + 512
      rw [e0]; show ((i 0).val / 512 * 8 + 7) / 8 * 512 ≤ (i 0).val ∧ (i 0).val < ((i 0).val / 512 * 8 + 7) / 8 * 512 + 512; omega
    | ⟨1, _⟩ =>
      show win4_2.index ⟨(i 0).val / 512 * 8 + 7, hlt⟩ (1 : Fin 2) * 512 ≤ (i 1).val ∧ (i 1).val < win4_2.index ⟨(i 0).val / 512 * 8 + 7, hlt⟩ (1 : Fin 2) * 512 + 512
      rw [e1]; omega

end Cert.KernelIdeal.HandValue

end
-- ==== Proof.KI.Values.lean ====
import proofs.«177075_j77953656422623_1_alg».proof.Proof.KI.Fold
import proofs.«177075_j77953656422623_1_alg».proof.Proof.Spec
import proofs.«177075_j77953656422623_1_alg».proof.Proof.KI.Mlp0Value
import proofs.«177075_j77953656422623_1_alg».proof.Proof.KI.Mlp1Value
import proofs.«177075_j77953656422623_1_alg».proof.Proof.KI.Mlp2Value
import proofs.«177075_j77953656422623_1_alg».proof.Proof.KI.Mlp5Value
import proofs.«177075_j77953656422623_1_alg».proof.Proof.KI.Mlp6Value
import proofs.«177075_j77953656422623_1_alg».proof.Proof.KI.Pool3Value
import proofs.«177075_j77953656422623_1_alg».proof.Proof.KI.Pool4Value
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

section Keeps
variable (m : (ℓ : Loc nD τ sig) → Buf (Elt Ideal) ℓ) (c : Dev nD)

theorem W1_of (r : Ref sig .tc) (h : r ∉ hostOps0_W) : W1 m c r = W0 m c r :=
  StableHlo.after_of_writes_sub hostOps0 _ hostOps0_writes h
theorem W2_of (r : Ref sig .tc) (h : r ∉ ([main_v15] : List (Ref sig .tc))) : W2 m c r = W1 m c r := by
  simp only [W2, Function.update_of_ne (StableHlo.devRef_ne_of_ne (List.ne_of_not_mem_cons h) : (Proc.devRef .tc r : DevRef τ sig) ≠ Proc.devRef .tc main_v15)]
theorem W3_of (r : Ref sig .tc) (h : r ∉ hostOps1_W) : W3 m c r = W2 m c r :=
  StableHlo.after_of_writes_sub hostOps1 _ hostOps1_writes h
theorem W4_of (r : Ref sig .tc) (h : r ∉ ([main_v18] : List (Ref sig .tc))) : W4 m c r = W3 m c r := by
  simp only [W4, Function.update_of_ne (StableHlo.devRef_ne_of_ne (List.ne_of_not_mem_cons h) : (Proc.devRef .tc r : DevRef τ sig) ≠ Proc.devRef .tc main_v18)]
theorem W5_of (r : Ref sig .tc) (h : r ∉ hostOps2_W) : W5 m c r = W4 m c r :=
  StableHlo.after_of_writes_sub hostOps2 _ hostOps2_writes h
theorem W6_of (r : Ref sig .tc) (h : r ∉ ([main_v21] : List (Ref sig .tc))) : W6 m c r = W5 m c r := by
  simp only [W6, Function.update_of_ne (StableHlo.devRef_ne_of_ne (List.ne_of_not_mem_cons h) : (Proc.devRef .tc r : DevRef τ sig) ≠ Proc.devRef .tc main_v21)]
theorem W7_of (r : Ref sig .tc) (h : r ∉ ([main_v22] : List (Ref sig .tc))) : W7 m c r = W6 m c r := by
  simp only [W7, Function.update_of_ne (StableHlo.devRef_ne_of_ne (List.ne_of_not_mem_cons h) : (Proc.devRef .tc r : DevRef τ sig) ≠ Proc.devRef .tc main_v22)]
theorem W8_of (r : Ref sig .tc) (h : r ∉ ([main_v23] : List (Ref sig .tc))) : W8 m c r = W7 m c r := by
  simp only [W8, Function.update_of_ne (StableHlo.devRef_ne_of_ne (List.ne_of_not_mem_cons h) : (Proc.devRef .tc r : DevRef τ sig) ≠ Proc.devRef .tc main_v23)]
theorem W9_of (r : Ref sig .tc) (h : r ∉ hostOps5_W) : W9 m c r = W8 m c r :=
  StableHlo.after_of_writes_sub hostOps5 _ hostOps5_writes h
theorem W10_of (r : Ref sig .tc) (h : r ∉ ([main_v30] : List (Ref sig .tc))) : W10 m c r = W9 m c r := by
  simp only [W10, Function.update_of_ne (StableHlo.devRef_ne_of_ne (List.ne_of_not_mem_cons h) : (Proc.devRef .tc r : DevRef τ sig) ≠ Proc.devRef .tc main_v30)]
theorem W11_of (r : Ref sig .tc) (h : r ∉ hostOps6_W) : W11 m c r = W10 m c r :=
  StableHlo.after_of_writes_sub hostOps6 _ hostOps6_writes h
theorem W12_of (r : Ref sig .tc) (h : r ∉ ([main_v33] : List (Ref sig .tc))) : W12 m c r = W11 m c r := by
  simp only [W12, Function.update_of_ne (StableHlo.devRef_ne_of_ne (List.ne_of_not_mem_cons h) : (Proc.devRef .tc r : DevRef τ sig) ≠ Proc.devRef .tc main_v33)]

end Keeps

theorem hcat_eq (l r : S4096x512.Idx → EReal) :
    concatenate S4096x1024 1 [⟨S4096x512, l⟩, ⟨S4096x512, r⟩] concatenates_S4096x512_S4096x512_S4096x1024_d1
    = Cert.Spec.hcat (N := 4096) (A := 512) (B := 512) (C := 1024) l r := by
  funext j
  obtain ⟨n, c, rfl⟩ : ∃ (n : Fin 4096) (c : Fin 1024), j = ix2 n c := ⟨j 0, j 1, eq_ix2 j⟩
  have e : Cert.Spec.hcat (N := 4096) (A := 512) (B := 512) (C := 1024) l r (ix2 n c)
      = if h : c.val < 512 then l (ix2 n ⟨c.val, h⟩)
        else if h2 : c.val - 512 < 512 then r (ix2 n ⟨c.val - 512, h2⟩) else 0 := rfl
  rw [e]
  by_cases hlt : c.val < 512
  · rw [dif_pos hlt]
    exact concatenate_pair_apply_left 1 l r concatenates_S4096x512_S4096x512_S4096x1024_d1 (ix2 n c) rfl
      (ix2 n ⟨c.val, hlt⟩) (fun b => match b with
        | ⟨0, _⟩ => rfl
        | ⟨1, _⟩ => rfl)
  · have h2 : c.val - 512 < 512 := by have := c.isLt; omega
    rw [dif_neg hlt, dif_pos h2]
    exact concatenate_pair_apply_right 1 l r concatenates_S4096x512_S4096x512_S4096x1024_d1 (ix2 n c) rfl rfl
      (ix2 n ⟨c.val - 512, h2⟩) (fun b hb => match b, hb with
        | ⟨0, _⟩, _ => rfl
        | ⟨1, _⟩, hb => absurd rfl hb)
      (by show c.val - 512 + 512 = c.val; omega)

section Host
variable (V : Valuation τ sig (Elt Ideal))

theorem host0_v0 : (StableHlo.after hostOps0 V main_v0 : S16384x4096.Idx → EReal) = V main_arg0 := by
  show StableHlo.after hostOps0 _ (Proc.devRef .tc main_v0) = _
  after_results; rfl
theorem host0_v1 : (StableHlo.after hostOps0 V main_v1 : S16384x4096.Idx → EReal) = V main_arg1 := by
  show StableHlo.after hostOps0 _ (Proc.devRef .tc main_v1) = _
  after_results; rfl
theorem host0_v2 : (StableHlo.after hostOps0 V main_v2 : S4096x4096.Idx → EReal) = V main_arg2 := by
  show StableHlo.after hostOps0 _ (Proc.devRef .tc main_v2) = _
  after_results; rfl
theorem host0_v3 : (StableHlo.after hostOps0 V main_v3 : S4096x1024.Idx → EReal) = V main_arg3 := by
  show StableHlo.after hostOps0 _ (Proc.devRef .tc main_v3) = _
  after_results; rfl
theorem host0_v4 : (StableHlo.after hostOps0 V main_v4 : S1024x512.Idx → EReal) = V main_arg5 := by
  show StableHlo.after hostOps0 _ (Proc.devRef .tc main_v4) = _
  after_results; rfl
theorem host0_v5 : (StableHlo.after hostOps0 V main_v5 : S4096x1024.Idx → EReal) = V main_arg7 := by
  show StableHlo.after hostOps0 _ (Proc.devRef .tc main_v5) = _
  after_results; rfl
theorem host0_v6 : (StableHlo.after hostOps0 V main_v6 : S1024x512.Idx → EReal) = V main_arg9 := by
  show StableHlo.after hostOps0 _ (Proc.devRef .tc main_v6) = _
  after_results; rfl
theorem host0_v7 : (StableHlo.after hostOps0 V main_v7 : S4096x1024.Idx → EReal) = V main_arg11 := by
  show StableHlo.after hostOps0 _ (Proc.devRef .tc main_v7) = _
  after_results; rfl
theorem host0_v8 : (StableHlo.after hostOps0 V main_v8 : S1024x512.Idx → EReal) = V main_arg13 := by
  show StableHlo.after hostOps0 _ (Proc.devRef .tc main_v8) = _
  after_results; rfl
theorem host0_v9 : (StableHlo.after hostOps0 V main_v9 : S1024x1024.Idx → EReal) = V main_arg15 := by
  show StableHlo.after hostOps0 _ (Proc.devRef .tc main_v9) = _
  after_results; rfl
theorem host0_v10 : (StableHlo.after hostOps0 V main_v10 : S1024x4096.Idx → EReal) = V main_arg17 := by
  show StableHlo.after hostOps0 _ (Proc.devRef .tc main_v10) = _
  after_results; rfl
theorem host0_v11 : (StableHlo.after hostOps0 V main_v11 : S1024x1024.Idx → EReal) = V main_arg19 := by
  show StableHlo.after hostOps0 _ (Proc.devRef .tc main_v11) = _
  after_results; rfl
theorem host0_v12 : (StableHlo.after hostOps0 V main_v12 : S1024x4096.Idx → EReal) = V main_arg21 := by
  show StableHlo.after hostOps0 _ (Proc.devRef .tc main_v12) = _
  after_results; rfl
theorem host0_v13 : (fun j : S1024.Idx => (StableHlo.after hostOps0 V main_v13 : S1x1024.Idx → EReal) (ix2 (0 : Fin 1) (j 0 : Fin 1024)))
    = (V main_arg4 : S1024.Idx → EReal) := by
  funext j
  show StableHlo.after hostOps0 _ (Proc.devRef .tc main_v13) _ = _
  after_results
  exact (shapeCast_a_1a_apply (V main_arg4 : S1024.Idx → EReal) shapeCasts_S1024_S1x1024 (0 : Fin 1) (j 0 : Fin 1024)).trans
    (congrArg _ (eq_ix1 j).symm)
theorem host0_v14 : (fun j : S512.Idx => (StableHlo.after hostOps0 V main_v14 : S1x512.Idx → EReal) (ix2 (0 : Fin 1) (j 0 : Fin 512)))
    = (V main_arg6 : S512.Idx → EReal) := by
  funext j
  show StableHlo.after hostOps0 _ (Proc.devRef .tc main_v14) _ = _
  after_results
  exact (shapeCast_a_1a_apply (V main_arg6 : S512.Idx → EReal) shapeCasts_S512_S1x512 (0 : Fin 1) (j 0 : Fin 512)).trans
    (congrArg _ (eq_ix1 j).symm)
theorem host1_v16 : (fun j : S1024.Idx => (StableHlo.after hostOps1 V main_v16 : S1x1024.Idx → EReal) (ix2 (0 : Fin 1) (j 0 : Fin 1024)))
    = (V main_arg8 : S1024.Idx → EReal) := by
  funext j
  show StableHlo.after hostOps1 _ (Proc.devRef .tc main_v16) _ = _
  after_results
  exact (shapeCast_a_1a_apply (V main_arg8 : S1024.Idx → EReal) shapeCasts_S1024_S1x1024 (0 : Fin 1) (j 0 : Fin 1024)).trans
    (congrArg _ (eq_ix1 j).symm)
theorem host1_v17 : (fun j : S512.Idx => (StableHlo.after hostOps1 V main_v17 : S1x512.Idx → EReal) (ix2 (0 : Fin 1) (j 0 : Fin 512)))
    = (V main_arg10 : S512.Idx → EReal) := by
  funext j
  show StableHlo.after hostOps1 _ (Proc.devRef .tc main_v17) _ = _
  after_results
  exact (shapeCast_a_1a_apply (V main_arg10 : S512.Idx → EReal) shapeCasts_S512_S1x512 (0 : Fin 1) (j 0 : Fin 512)).trans
    (congrArg _ (eq_ix1 j).symm)
theorem host2_v19 : (fun j : S1024.Idx => (StableHlo.after hostOps2 V main_v19 : S1x1024.Idx → EReal) (ix2 (0 : Fin 1) (j 0 : Fin 1024)))
    = (V main_arg12 : S1024.Idx → EReal) := by
  funext j
  show StableHlo.after hostOps2 _ (Proc.devRef .tc main_v19) _ = _
  after_results
  exact (shapeCast_a_1a_apply (V main_arg12 : S1024.Idx → EReal) shapeCasts_S1024_S1x1024 (0 : Fin 1) (j 0 : Fin 1024)).trans
    (congrArg _ (eq_ix1 j).symm)
theorem host2_v20 : (fun j : S512.Idx => (StableHlo.after hostOps2 V main_v20 : S1x512.Idx → EReal) (ix2 (0 : Fin 1) (j 0 : Fin 512)))
    = (V main_arg14 : S512.Idx → EReal) := by
  funext j
  show StableHlo.after hostOps2 _ (Proc.devRef .tc main_v20) _ = _
  after_results
  exact (shapeCast_a_1a_apply (V main_arg14 : S512.Idx → EReal) shapeCasts_S512_S1x512 (0 : Fin 1) (j 0 : Fin 512)).trans
    (congrArg _ (eq_ix1 j).symm)
theorem host5_v28 : (fun j : S1024.Idx => (StableHlo.after hostOps5 V main_v28 : S1x1024.Idx → EReal) (ix2 (0 : Fin 1) (j 0 : Fin 1024)))
    = (V main_arg16 : S1024.Idx → EReal) := by
  funext j
  show StableHlo.after hostOps5 _ (Proc.devRef .tc main_v28) _ = _
  after_results
  exact (shapeCast_a_1a_apply (V main_arg16 : S1024.Idx → EReal) shapeCasts_S1024_S1x1024 (0 : Fin 1) (j 0 : Fin 1024)).trans
    (congrArg _ (eq_ix1 j).symm)
theorem host5_v29 : (fun j : S4096.Idx => (StableHlo.after hostOps5 V main_v29 : S1x4096.Idx → EReal) (ix2 (0 : Fin 1) (j 0 : Fin 4096)))
    = (V main_arg18 : S4096.Idx → EReal) := by
  funext j
  show StableHlo.after hostOps5 _ (Proc.devRef .tc main_v29) _ = _
  after_results
  exact (shapeCast_a_1a_apply (V main_arg18 : S4096.Idx → EReal) shapeCasts_S4096_S1x4096 (0 : Fin 1) (j 0 : Fin 4096)).trans
    (congrArg _ (eq_ix1 j).symm)
theorem host6_v31 : (fun j : S1024.Idx => (StableHlo.after hostOps6 V main_v31 : S1x1024.Idx → EReal) (ix2 (0 : Fin 1) (j 0 : Fin 1024)))
    = (V main_arg20 : S1024.Idx → EReal) := by
  funext j
  show StableHlo.after hostOps6 _ (Proc.devRef .tc main_v31) _ = _
  after_results
  exact (shapeCast_a_1a_apply (V main_arg20 : S1024.Idx → EReal) shapeCasts_S1024_S1x1024 (0 : Fin 1) (j 0 : Fin 1024)).trans
    (congrArg _ (eq_ix1 j).symm)
theorem host6_v32 : (fun j : S4096.Idx => (StableHlo.after hostOps6 V main_v32 : S1x4096.Idx → EReal) (ix2 (0 : Fin 1) (j 0 : Fin 4096)))
    = (V main_arg22 : S4096.Idx → EReal) := by
  funext j
  show StableHlo.after hostOps6 _ (Proc.devRef .tc main_v32) _ = _
  after_results
  exact (shapeCast_a_1a_apply (V main_arg22 : S4096.Idx → EReal) shapeCasts_S4096_S1x4096 (0 : Fin 1) (j 0 : Fin 4096)).trans
    (congrArg _ (eq_ix1 j).symm)
theorem host5_v26 : (StableHlo.after hostOps5 V main_v26 : S4096x1024.Idx → EReal)
    = Cert.Spec.hcat (N := 4096) (A := 512) (B := 512) (C := 1024) (V main_v21) (V main_v22) := by
  show StableHlo.after hostOps5 _ (Proc.devRef .tc main_v26) = _
  after_results
  exact hcat_eq _ _
theorem host5_v27 : (StableHlo.after hostOps5 V main_v27 : S4096x1024.Idx → EReal)
    = Cert.Spec.hcat (N := 4096) (A := 512) (B := 512) (C := 1024) (V main_v21) (V main_v23) := by
  show StableHlo.after hostOps5 _ (Proc.devRef .tc main_v27) = _
  after_results
  exact hcat_eq _ _

end Host

abbrev Mem : Type := (ℓ : Loc nD τ sig) → Buf (Elt Ideal) ℓ

def hA (m : Mem) (c : Dev nD) : Cert.Spec.Mat 16384 512 :=
  Cert.Spec.mlp (N := 16384) (K := 4096) (H := 1024) (O := 512) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))

def hD (m : Mem) (c : Dev nD) : Cert.Spec.Mat 16384 512 :=
  Cert.Spec.mlp (N := 16384) (K := 4096) (H := 1024) (O := 512) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))

def hM (m : Mem) (c : Dev nD) : Cert.Spec.Mat 4096 512 :=
  Cert.Spec.mlp (N := 4096) (K := 4096) (H := 1024) (O := 512) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14))

def recA (m : Mem) (c : Dev nD) : Cert.Spec.Mat 4096 4096 :=
  Cert.Spec.mlp (N := 4096) (K := 1024) (H := 1024) (O := 4096)
    (Cert.Spec.hcat (C := 1024) (hM m c) (Cert.Spec.pool (m ((c.tc : Thread nD τ).loc main_arg0)) (hA m c))) (m ((c.tc : Thread nD τ).loc main_arg15)) (m ((c.tc : Thread nD τ).loc main_arg16)) (m ((c.tc : Thread nD τ).loc main_arg17)) (m ((c.tc : Thread nD τ).loc main_arg18))

def recD (m : Mem) (c : Dev nD) : Cert.Spec.Mat 4096 4096 :=
  Cert.Spec.mlp (N := 4096) (K := 1024) (H := 1024) (O := 4096)
    (Cert.Spec.hcat (C := 1024) (hM m c) (Cert.Spec.pool (m ((c.tc : Thread nD τ).loc main_arg1)) (hD m c))) (m ((c.tc : Thread nD τ).loc main_arg19)) (m ((c.tc : Thread nD τ).loc main_arg20)) (m ((c.tc : Thread nD τ).loc main_arg21)) (m ((c.tc : Thread nD τ).loc main_arg22))

section Congr
variable {N K H O M A B C : Nat}
theorem mlp_congr {x x' : Cert.Spec.Mat N K} {w1 w1' : Cert.Spec.Mat K H} {b1 b1' : Cert.Spec.Row H}
    {w2 w2' : Cert.Spec.Mat H O} {b2 b2' : Cert.Spec.Row O}
    (hx : x = x') (h1 : w1 = w1') (hb1 : b1 = b1') (h2 : w2 = w2') (hb2 : b2 = b2') :
    Cert.Spec.mlp x w1 b1 w2 b2 = Cert.Spec.mlp x' w1' b1' w2' b2' := by rw [hx, h1, hb1, h2, hb2]
theorem pool_congr {a a' : Cert.Spec.Mat N M} {b b' : Cert.Spec.Mat N O} (ha : a = a') (hb : b = b') :
    Cert.Spec.pool a b = Cert.Spec.pool a' b' := by rw [ha, hb]
theorem hcat_congr {l l' : Cert.Spec.Mat N A} {r r' : Cert.Spec.Mat N B} (hl : l = l') (hr : r = r') :
    Cert.Spec.hcat (C := C) l r = Cert.Spec.hcat (C := C) l' r' := by rw [hl, hr]
end Congr

section Results
variable (m : Mem) (c : Dev nD)

theorem out0 : (W2 m c main_v15 : S16384x512.Idx → EReal) = hA m c := by
  have hs : (W2 m c main_v15 : S16384x512.Idx → EReal) = (dat0 (atTc (W1 m)) c).arrAt 5 cfg0.N := by
    unfold W2; rw [Function.update_self]
  exact hs.trans <| (mlp0_value (atTc (W1 m)) c).trans <|
    mlp_congr (host0_v0 (W0 m c)) (host0_v3 (W0 m c)) (host0_v13 (W0 m c)) (host0_v4 (W0 m c)) (host0_v14 (W0 m c))

theorem in1_x : (atTc (W3 m) c main_v1 : S16384x4096.Idx → EReal) = (m ((c.tc : Thread nD τ).loc main_arg1)) :=
  (W3_of m c main_v1 (by decide)).trans <| (W2_of m c main_v1 (by decide)).trans <| host0_v1 (W0 m c)
theorem in1_w1 : (atTc (W3 m) c main_v5 : S4096x1024.Idx → EReal) = (m ((c.tc : Thread nD τ).loc main_arg7)) :=
  (W3_of m c main_v5 (by decide)).trans <| (W2_of m c main_v5 (by decide)).trans <| host0_v5 (W0 m c)
theorem in1_b1 : (fun j : S1024.Idx => (atTc (W3 m) c main_v16 : S1x1024.Idx → EReal) (ix2 (0 : Fin 1) (j 0 : Fin 1024)))
    = (m ((c.tc : Thread nD τ).loc main_arg8)) :=
  (host1_v16 (W2 m c)).trans <| (W2_of m c main_arg8 (by decide)).trans <| (W1_of m c main_arg8 (by decide)).trans <| rfl
theorem in1_w2 : (atTc (W3 m) c main_v6 : S1024x512.Idx → EReal) = (m ((c.tc : Thread nD τ).loc main_arg9)) :=
  (W3_of m c main_v6 (by decide)).trans <| (W2_of m c main_v6 (by decide)).trans <| host0_v6 (W0 m c)
theorem in1_b2 : (fun j : S512.Idx => (atTc (W3 m) c main_v17 : S1x512.Idx → EReal) (ix2 (0 : Fin 1) (j 0 : Fin 512)))
    = (m ((c.tc : Thread nD τ).loc main_arg10)) :=
  (host1_v17 (W2 m c)).trans <| (W2_of m c main_arg10 (by decide)).trans <| (W1_of m c main_arg10 (by decide)).trans <| rfl
theorem out1 : (W4 m c main_v18 : S16384x512.Idx → EReal) = hD m c := by
  have hs : (W4 m c main_v18 : S16384x512.Idx → EReal) = (dat1 (atTc (W3 m)) c).arrAt 5 cfg1.N := by
    unfold W4; rw [Function.update_self]
  exact hs.trans <| (mlp1_value (atTc (W3 m)) c).trans <|
    mlp_congr (in1_x m c) (in1_w1 m c) (in1_b1 m c) (in1_w2 m c) (in1_b2 m c)

theorem in2_x : (atTc (W5 m) c main_v2 : S4096x4096.Idx → EReal) = (m ((c.tc : Thread nD τ).loc main_arg2)) :=
  (W5_of m c main_v2 (by decide)).trans <| (W4_of m c main_v2 (by decide)).trans <| (W3_of m c main_v2 (by decide)).trans <| (W2_of m c main_v2 (by decide)).trans <| host0_v2 (W0 m c)
theorem in2_w1 : (atTc (W5 m) c main_v7 : S4096x1024.Idx → EReal) = (m ((c.tc : Thread nD τ).loc main_arg11)) :=
  (W5_of m c main_v7 (by decide)).trans <| (W4_of m c main_v7 (by decide)).trans <| (W3_of m c main_v7 (by decide)).trans <| (W2_of m c main_v7 (by decide)).trans <| host0_v7 (W0 m c)
theorem in2_b1 : (fun j : S1024.Idx => (atTc (W5 m) c main_v19 : S1x1024.Idx → EReal) (ix2 (0 : Fin 1) (j 0 : Fin 1024)))
    = (m ((c.tc : Thread nD τ).loc main_arg12)) :=
  (host2_v19 (W4 m c)).trans <| (W4_of m c main_arg12 (by decide)).trans <| (W3_of m c main_arg12 (by decide)).trans <| (W2_of m c main_arg12 (by decide)).trans <| (W1_of m c main_arg12 (by decide)).trans <| rfl
theorem in2_w2 : (atTc (W5 m) c main_v8 : S1024x512.Idx → EReal) = (m ((c.tc : Thread nD τ).loc main_arg13)) :=
  (W5_of m c main_v8 (by decide)).trans <| (W4_of m c main_v8 (by decide)).trans <| (W3_of m c main_v8 (by decide)).trans <| (W2_of m c main_v8 (by decide)).trans <| host0_v8 (W0 m c)
theorem in2_b2 : (fun j : S512.Idx => (atTc (W5 m) c main_v20 : S1x512.Idx → EReal) (ix2 (0 : Fin 1) (j 0 : Fin 512)))
    = (m ((c.tc : Thread nD τ).loc main_arg14)) :=
  (host2_v20 (W4 m c)).trans <| (W4_of m c main_arg14 (by decide)).trans <| (W3_of m c main_arg14 (by decide)).trans <| (W2_of m c main_arg14 (by decide)).trans <| (W1_of m c main_arg14 (by decide)).trans <| rfl
theorem out2 : (W6 m c main_v21 : S4096x512.Idx → EReal) = hM m c := by
  have hs : (W6 m c main_v21 : S4096x512.Idx → EReal) = (dat2 (atTc (W5 m)) c).arrAt 5 cfg2.N := by
    unfold W6; rw [Function.update_self]
  exact hs.trans <| (mlp2_value (atTc (W5 m)) c).trans <|
    mlp_congr (in2_x m c) (in2_w1 m c) (in2_b1 m c) (in2_w2 m c) (in2_b2 m c)

theorem in3_a : (atTc (W6 m) c main_v0 : S16384x4096.Idx → EReal) = (m ((c.tc : Thread nD τ).loc main_arg0)) :=
  (W6_of m c main_v0 (by decide)).trans <| (W5_of m c main_v0 (by decide)).trans <| (W4_of m c main_v0 (by decide)).trans <| (W3_of m c main_v0 (by decide)).trans <| (W2_of m c main_v0 (by decide)).trans <| host0_v0 (W0 m c)
theorem in3_b : (atTc (W6 m) c main_v15 : S16384x512.Idx → EReal) = hA m c :=
  (W6_of m c main_v15 (by decide)).trans <| (W5_of m c main_v15 (by decide)).trans <| (W4_of m c main_v15 (by decide)).trans <| (W3_of m c main_v15 (by decide)).trans <| out0 m c
theorem out3 : (W7 m c main_v22 : S4096x512.Idx → EReal) = Cert.Spec.pool (m ((c.tc : Thread nD τ).loc main_arg0)) (hA m c) := by
  have hs : (W7 m c main_v22 : S4096x512.Idx → EReal) = (dat3 (atTc (W6 m)) c).arrAt 2 cfg3.N := by
    unfold W7; rw [Function.update_self]
  exact hs.trans <| (pool3_value (atTc (W6 m)) c).trans <| pool_congr (in3_a m c) (in3_b m c)

theorem in4_a : (atTc (W7 m) c main_v1 : S16384x4096.Idx → EReal) = (m ((c.tc : Thread nD τ).loc main_arg1)) :=
  (W7_of m c main_v1 (by decide)).trans <| (W6_of m c main_v1 (by decide)).trans <| (W5_of m c main_v1 (by decide)).trans <| (W4_of m c main_v1 (by decide)).trans <| (W3_of m c main_v1 (by decide)).trans <| (W2_of m c main_v1 (by decide)).trans <| host0_v1 (W0 m c)
theorem in4_b : (atTc (W7 m) c main_v18 : S16384x512.Idx → EReal) = hD m c :=
  (W7_of m c main_v18 (by decide)).trans <| (W6_of m c main_v18 (by decide)).trans <| (W5_of m c main_v18 (by decide)).trans <| out1 m c
theorem out4 : (W8 m c main_v23 : S4096x512.Idx → EReal) = Cert.Spec.pool (m ((c.tc : Thread nD τ).loc main_arg1)) (hD m c) := by
  have hs : (W8 m c main_v23 : S4096x512.Idx → EReal) = (dat4 (atTc (W7 m)) c).arrAt 2 cfg4.N := by
    unfold W8; rw [Function.update_self]
  exact hs.trans <| (pool4_value (atTc (W7 m)) c).trans <| pool_congr (in4_a m c) (in4_b m c)

theorem at8_v21 : (W8 m c main_v21 : S4096x512.Idx → EReal) = hM m c :=
  (W8_of m c main_v21 (by decide)).trans <| (W7_of m c main_v21 (by decide)).trans <| out2 m c
theorem at8_v22 : (W8 m c main_v22 : S4096x512.Idx → EReal) = Cert.Spec.pool (m ((c.tc : Thread nD τ).loc main_arg0)) (hA m c) :=
  (W8_of m c main_v22 (by decide)).trans <| out3 m c

theorem in5_x : (atTc (W9 m) c main_v26 : S4096x1024.Idx → EReal)
    = Cert.Spec.hcat (C := 1024) (hM m c) (Cert.Spec.pool (m ((c.tc : Thread nD τ).loc main_arg0)) (hA m c)) :=
  (host5_v26 (W8 m c)).trans <| hcat_congr (at8_v21 m c) (at8_v22 m c)
theorem in5_w1 : (atTc (W9 m) c main_v9 : S1024x1024.Idx → EReal) = (m ((c.tc : Thread nD τ).loc main_arg15)) :=
  (W9_of m c main_v9 (by decide)).trans <| (W8_of m c main_v9 (by decide)).trans <| (W7_of m c main_v9 (by decide)).trans <| (W6_of m c main_v9 (by decide)).trans <| (W5_of m c main_v9 (by decide)).trans <| (W4_of m c main_v9 (by decide)).trans <| (W3_of m c main_v9 (by decide)).trans <| (W2_of m c main_v9 (by decide)).trans <| host0_v9 (W0 m c)
theorem in5_b1 : (fun j : S1024.Idx => (atTc (W9 m) c main_v28 : S1x1024.Idx → EReal) (ix2 (0 : Fin 1) (j 0 : Fin 1024)))
    = (m ((c.tc : Thread nD τ).loc main_arg16)) :=
  (host5_v28 (W8 m c)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem in5_w2 : (atTc (W9 m) c main_v10 : S1024x4096.Idx → EReal) = (m ((c.tc : Thread nD τ).loc main_arg17)) :=
  (W9_of m c main_v10 (by decide)).trans <| (W8_of m c main_v10 (by decide)).trans <| (W7_of m c main_v10 (by decide)).trans <| (W6_of m c main_v10 (by decide)).trans <| (W5_of m c main_v10 (by decide)).trans <| (W4_of m c main_v10 (by decide)).trans <| (W3_of m c main_v10 (by decide)).trans <| (W2_of m c main_v10 (by decide)).trans <| host0_v10 (W0 m c)
theorem in5_b2 : (fun j : S4096.Idx => (atTc (W9 m) c main_v29 : S1x4096.Idx → EReal) (ix2 (0 : Fin 1) (j 0 : Fin 4096)))
    = (m ((c.tc : Thread nD τ).loc main_arg18)) :=
  (host5_v29 (W8 m c)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans <| rfl
theorem out5 : (W10 m c main_v30 : S4096x4096.Idx → EReal) = recA m c := by
  have hs : (W10 m c main_v30 : S4096x4096.Idx → EReal) = (dat5 (atTc (W9 m)) c).arrAt 5 cfg5.N := by
    unfold W10; rw [Function.update_self]
  exact hs.trans <| (mlp5_value (atTc (W9 m)) c).trans <|
    mlp_congr (in5_x m c) (in5_w1 m c) (in5_b1 m c) (in5_w2 m c) (in5_b2 m c)

theorem in6_x : (atTc (W11 m) c main_v27 : S4096x1024.Idx → EReal)
    = Cert.Spec.hcat (C := 1024) (hM m c) (Cert.Spec.pool (m ((c.tc : Thread nD τ).loc main_arg1)) (hD m c)) :=
  (W11_of m c main_v27 (by decide)).trans <| (W10_of m c main_v27 (by decide)).trans <| (host5_v27 (W8 m c)).trans <| hcat_congr (at8_v21 m c) (out4 m c)
theorem in6_w1 : (atTc (W11 m) c main_v11 : S1024x1024.Idx → EReal) = (m ((c.tc : Thread nD τ).loc main_arg19)) :=
  (W11_of m c main_v11 (by decide)).trans <| (W10_of m c main_v11 (by decide)).trans <| (W9_of m c main_v11 (by decide)).trans <| (W8_of m c main_v11 (by decide)).trans <| (W7_of m c main_v11 (by decide)).trans <| (W6_of m c main_v11 (by decide)).trans <| (W5_of m c main_v11 (by decide)).trans <| (W4_of m c main_v11 (by decide)).trans <| (W3_of m c main_v11 (by decide)).trans <| (W2_of m c main_v11 (by decide)).trans <| host0_v11 (W0 m c)
theorem in6_b1 : (fun j : S1024.Idx => (atTc (W11 m) c main_v31 : S1x1024.Idx → EReal) (ix2 (0 : Fin 1) (j 0 : Fin 1024)))
    = (m ((c.tc : Thread nD τ).loc main_arg20)) :=
  (host6_v31 (W10 m c)).trans <| (W10_of m c main_arg20 (by decide)).trans <| (W9_of m c main_arg20 (by decide)).trans <| (W8_of m c main_arg20 (by decide)).trans <| (W7_of m c main_arg20 (by decide)).trans <| (W6_of m c main_arg20 (by decide)).trans <| (W5_of m c main_arg20 (by decide)).trans <| (W4_of m c main_arg20 (by decide)).trans <| (W3_of m c main_arg20 (by decide)).trans <| (W2_of m c main_arg20 (by decide)).trans <| (W1_of m c main_arg20 (by decide)).trans <| rfl
theorem in6_w2 : (atTc (W11 m) c main_v12 : S1024x4096.Idx → EReal) = (m ((c.tc : Thread nD τ).loc main_arg21)) :=
  (W11_of m c main_v12 (by decide)).trans <| (W10_of m c main_v12 (by decide)).trans <| (W9_of m c main_v12 (by decide)).trans <| (W8_of m c main_v12 (by decide)).trans <| (W7_of m c main_v12 (by decide)).trans <| (W6_of m c main_v12 (by decide)).trans <| (W5_of m c main_v12 (by decide)).trans <| (W4_of m c main_v12 (by decide)).trans <| (W3_of m c main_v12 (by decide)).trans <| (W2_of m c main_v12 (by decide)).trans <| host0_v12 (W0 m c)
theorem in6_b2 : (fun j : S4096.Idx => (atTc (W11 m) c main_v32 : S1x4096.Idx → EReal) (ix2 (0 : Fin 1) (j 0 : Fin 4096)))
    = (m ((c.tc : Thread nD τ).loc main_arg22)) :=
  (host6_v32 (W10 m c)).trans <| (W10_of m c main_arg22 (by decide)).trans <| (W9_of m c main_arg22 (by decide)).trans <| (W8_of m c main_arg22 (by decide)).trans <| (W7_of m c main_arg22 (by decide)).trans <| (W6_of m c main_arg22 (by decide)).trans <| (W5_of m c main_arg22 (by decide)).trans <| (W4_of m c main_arg22 (by decide)).trans <| (W3_of m c main_arg22 (by decide)).trans <| (W2_of m c main_arg22 (by decide)).trans <| (W1_of m c main_arg22 (by decide)).trans <| rfl
theorem out6 : (W12 m c main_v33 : S4096x4096.Idx → EReal) = recD m c := by
  have hs : (W12 m c main_v33 : S4096x4096.Idx → EReal) = (dat6 (atTc (W11 m)) c).arrAt 5 cfg6.N := by
    unfold W12; rw [Function.update_self]
  exact hs.trans <| (mlp6_value (atTc (W11 m)) c).trans <|
    mlp_congr (in6_x m c) (in6_w1 m c) (in6_b1 m c) (in6_w2 m c) (in6_b2 m c)

theorem val_v15 : W12 m c main_v15 = hA m c :=
  (W12_of m c main_v15 (by decide)).trans <| (W11_of m c main_v15 (by decide)).trans <| (W10_of m c main_v15 (by decide)).trans <| (W9_of m c main_v15 (by decide)).trans <| (W8_of m c main_v15 (by decide)).trans <| (W7_of m c main_v15 (by decide)).trans <| (W6_of m c main_v15 (by decide)).trans <| (W5_of m c main_v15 (by decide)).trans <| (W4_of m c main_v15 (by decide)).trans <| (W3_of m c main_v15 (by decide)).trans <| out0 m c
theorem val_v18 : W12 m c main_v18 = hD m c :=
  (W12_of m c main_v18 (by decide)).trans <| (W11_of m c main_v18 (by decide)).trans <| (W10_of m c main_v18 (by decide)).trans <| (W9_of m c main_v18 (by decide)).trans <| (W8_of m c main_v18 (by decide)).trans <| (W7_of m c main_v18 (by decide)).trans <| (W6_of m c main_v18 (by decide)).trans <| (W5_of m c main_v18 (by decide)).trans <| out1 m c
theorem val_v21 : W12 m c main_v21 = hM m c :=
  (W12_of m c main_v21 (by decide)).trans <| (W11_of m c main_v21 (by decide)).trans <| (W10_of m c main_v21 (by decide)).trans <| (W9_of m c main_v21 (by decide)).trans <| (W8_of m c main_v21 (by decide)).trans <| (W7_of m c main_v21 (by decide)).trans <| out2 m c
theorem val_v30 : W12 m c main_v30 = recA m c :=
  (W12_of m c main_v30 (by decide)).trans <| (W11_of m c main_v30 (by decide)).trans <| out5 m c
theorem val_v33 : W12 m c main_v33 = recD m c := out6 m c

end Results

end Cert.KernelIdeal.HandValue

end
-- ==== Proof.Ref.lean ====
import proofs.«177075_j77953656422623_1_alg».proof.Proof.Gen.ReferenceIdeal.Run
import proofs.«177075_j77953656422623_1_alg».proof.Proof.Gen.ReferenceIdeal.Read
import proofs.«177075_j77953656422623_1_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.ValueIdx

section Stages
variable {N K H O M : Nat}

-- The left operand's columns are contracted against the right operand's rows.
def RowByCol {N K M : Nat} (d : DotDims ⟨2, ![N, K]⟩ ⟨2, ![K, M]⟩ ⟨2, ![N, M]⟩) : Prop :=
  d.lhsContracting = [1] ∧ d.rhsContracting = [0] ∧ d.lhsNonContracting = [0] ∧ d.rhsNonContracting = [1]
    ∧ d.lhsBatch = [] ∧ d.rhsBatch = []

theorem dot_apply {N K M : Nat} (d : DotDims ⟨2, ![N, K]⟩ ⟨2, ![K, M]⟩ ⟨2, ![N, M]⟩) (hd : RowByCol d)
    (l : FVec Ideal ⟨2, ![N, K]⟩ .f32) (r : FVec Ideal ⟨2, ![K, M]⟩ .f32) (n : Fin N) (c : Fin M) :
    Host.dotGeneral d none l r (ix2 n c) = ∑ k : Fin K, l (ix2 n k) * r (ix2 k c) :=
  RowLinear.dotGeneral_apply d hd.1 hd.2.1 hd.2.2.1 hd.2.2.2.1 hd.2.2.2.2.1 hd.2.2.2.2.2 none l r n c

-- A row vector spread over the rows reads, at (n, h), its entry h.
theorem bias_apply (g : (⟨1, ![H]⟩ : Shape).BroadcastsInDim ⟨2, ![1, H]⟩ ![1])
    (g' : (⟨2, ![1, H]⟩ : Shape).BroadcastsInDim ⟨2, ![N, H]⟩ ![0, 1]) (b : FVec Ideal ⟨1, ![H]⟩ .f32)
    (n : Fin N) (h : Fin H) :
    broadcastInDim ⟨2, ![N, H]⟩ ![0, 1] g' (broadcastInDim ⟨2, ![1, H]⟩ ![1] g b) (ix2 n h) = b (ix1 h) := by
  have key : h.val = if H = 1 then 0 else h.val := by
    by_cases e : H = 1
    · rw [if_pos e]; have := h.isLt; omega
    · rw [if_neg e]
  refine (broadcastInDim_apply _ g' _ (ix2 n h) (ix2 (0 : Fin 1) h) fun a => ?_).trans
    (broadcastInDim_apply _ g b (ix2 (0 : Fin 1) h) (ix1 h) fun a => ?_)
  · match a with
    | ⟨0, _⟩ => show (0 : Nat) = if (1 : Nat) = 1 then 0 else n.val; rw [if_pos rfl]
    | ⟨1, _⟩ => exact key
  · match a with
    | ⟨0, _⟩ => exact key

theorem zero_apply (g : (⟨0, ![]⟩ : Shape).BroadcastsInDim ⟨2, ![N, H]⟩ ![]) (j : (⟨2, ![N, H]⟩ : Shape).Idx) :
    broadcastInDim ⟨2, ![N, H]⟩ ![] g (constant (F := Ideal) ⟨0, ![]⟩ .f32 0x00000000#32) j = (0 : EReal) := by
  refine (broadcastInDim_apply _ g _ j ix0 fun a => a.elim0).trans ?_
  show FloatOps.ofBits (F := Ideal) .f32 0x00000000#32 = 0
  rw [Ideal.ofBits_def, Ideal.ofBits_zero_f32]

-- Entry by entry, the printed two-layer stage is the specification's.
theorem mlp_term_eq (d1 : DotDims ⟨2, ![N, K]⟩ ⟨2, ![K, H]⟩ ⟨2, ![N, H]⟩) (hd1 : RowByCol d1)
    (d2 : DotDims ⟨2, ![N, H]⟩ ⟨2, ![H, O]⟩ ⟨2, ![N, O]⟩) (hd2 : RowByCol d2)
    (g1 : (⟨1, ![H]⟩ : Shape).BroadcastsInDim ⟨2, ![1, H]⟩ ![1])
    (g1' : (⟨2, ![1, H]⟩ : Shape).BroadcastsInDim ⟨2, ![N, H]⟩ ![0, 1])
    (gz : (⟨0, ![]⟩ : Shape).BroadcastsInDim ⟨2, ![N, H]⟩ ![])
    (g2 : (⟨1, ![O]⟩ : Shape).BroadcastsInDim ⟨2, ![1, O]⟩ ![1])
    (g2' : (⟨2, ![1, O]⟩ : Shape).BroadcastsInDim ⟨2, ![N, O]⟩ ![0, 1])
    (x : FVec Ideal ⟨2, ![N, K]⟩ .f32) (w1 : FVec Ideal ⟨2, ![K, H]⟩ .f32) (b1 : FVec Ideal ⟨1, ![H]⟩ .f32)
    (w2 : FVec Ideal ⟨2, ![H, O]⟩ .f32) (b2 : FVec Ideal ⟨1, ![O]⟩ .f32) :
    addf (Host.dotGeneral d2 none (maximumf (addf (Host.dotGeneral d1 none x w1)
          (broadcastInDim ⟨2, ![N, H]⟩ ![0, 1] g1' (broadcastInDim ⟨2, ![1, H]⟩ ![1] g1 b1)))
        (broadcastInDim ⟨2, ![N, H]⟩ ![] gz (constant ⟨0, ![]⟩ .f32 0x00000000#32))) w2)
      (broadcastInDim ⟨2, ![N, O]⟩ ![0, 1] g2' (broadcastInDim ⟨2, ![1, O]⟩ ![1] g2 b2))
    = Cert.Spec.mlp x w1 b1 w2 b2 := by
  funext j
  obtain ⟨n, o, rfl⟩ : ∃ (n : Fin N) (o : Fin O), j = ix2 n o := ⟨j 0, j 1, eq_ix2 j⟩
  show FloatOps.addf (Host.dotGeneral d2 none _ w2 (ix2 n o))
      (broadcastInDim ⟨2, ![N, O]⟩ ![0, 1] g2' (broadcastInDim ⟨2, ![1, O]⟩ ![1] g2 b2) (ix2 n o)) = _
  rw [dot_apply d2 hd2, bias_apply, Ideal.addf_def, Cert.Spec.mlp_apply]
  refine congrArg (· + _) (Finset.sum_congr rfl fun h _ => congrArg (· * _) ?_)
  show FloatOps.maximumf (FloatOps.addf (Host.dotGeneral d1 none x w1 (ix2 n h))
      (broadcastInDim ⟨2, ![N, H]⟩ ![0, 1] g1' (broadcastInDim ⟨2, ![1, H]⟩ ![1] g1 b1) (ix2 n h)))
    (broadcastInDim ⟨2, ![N, H]⟩ ![] gz (constant (F := Ideal) ⟨0, ![]⟩ .f32 0x00000000#32) (ix2 n h)) = _
  rw [dot_apply d1 hd1, bias_apply, zero_apply, Ideal.maximumf_def, Ideal.addf_def, Cert.Spec.hidden_apply]

-- Contracting the transposed left matrix against the right one sums over their shared rows.
theorem pool_term_eq (d : DotDims ⟨2, ![M, N]⟩ ⟨2, ![N, O]⟩ ⟨2, ![M, O]⟩) (hd : RowByCol d)
    (g : (⟨2, ![N, M]⟩ : Shape).Transposes [1, 0] ⟨2, ![M, N]⟩)
    (a : FVec Ideal ⟨2, ![N, M]⟩ .f32) (b : FVec Ideal ⟨2, ![N, O]⟩ .f32) :
    Host.dotGeneral d none (transpose ⟨2, ![M, N]⟩ [1, 0] a g) b = Cert.Spec.pool a b := by
  funext j
  obtain ⟨i, o, rfl⟩ : ∃ (i : Fin M) (o : Fin O), j = ix2 i o := ⟨j 0, j 1, eq_ix2 j⟩
  rw [dot_apply d hd, Cert.Spec.pool_apply]
  refine Finset.sum_congr rfl fun n _ => ?_
  rw [transpose_apply [1, 0] a g (ix2 i n) (ix2 n i) (fun b => match b with
    | ⟨0, _⟩ => rfl
    | ⟨1, _⟩ => rfl)]

end Stages

theorem hcat_eq (l r : FVec Ideal S4096x512 .f32) :
    concatenate S4096x1024 1 [⟨S4096x512, l⟩, ⟨S4096x512, r⟩] concatenates_S4096x512_S4096x512_S4096x1024_d1
    = Cert.Spec.hcat (N := 4096) (A := 512) (B := 512) (C := 1024) l r := by
  funext j
  obtain ⟨n, c, rfl⟩ : ∃ (n : Fin 4096) (c : Fin 1024), j = ix2 n c := ⟨j 0, j 1, eq_ix2 j⟩
  show _ = if h : c.val < 512 then l (ix2 n ⟨c.val, h⟩)
    else if h2 : c.val - 512 < 512 then r (ix2 n ⟨c.val - 512, h2⟩) else 0
  by_cases hlt : c.val < 512
  · rw [dif_pos hlt]
    exact concatenate_pair_apply_left 1 l r concatenates_S4096x512_S4096x512_S4096x1024_d1 (ix2 n c) rfl
      (ix2 n ⟨c.val, hlt⟩) (fun b => match b with
        | ⟨0, _⟩ => rfl
        | ⟨1, _⟩ => rfl)
  · have h2 : c.val - 512 < 512 := by have := c.isLt; omega
    rw [dif_neg hlt, dif_pos h2]
    exact concatenate_pair_apply_right 1 l r concatenates_S4096x512_S4096x512_S4096x1024_d1 (ix2 n c) rfl rfl
      (ix2 n ⟨c.val - 512, h2⟩) (fun b hb => match b, hb with
        | ⟨0, _⟩, _ => rfl
        | ⟨1, _⟩, hb => absurd rfl hb)
      (by show c.val - 512 + 512 = c.val; omega)

abbrev Mem : Type := (ℓ : Loc nD τ sig) → Buf (Elt Ideal) ℓ

def hA (m : Mem) (c : Dev nD) : Cert.Spec.Mat 16384 512 :=
  Cert.Spec.mlp (N := 16384) (K := 4096) (H := 1024) (O := 512) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))

def hD (m : Mem) (c : Dev nD) : Cert.Spec.Mat 16384 512 :=
  Cert.Spec.mlp (N := 16384) (K := 4096) (H := 1024) (O := 512) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))

def hM (m : Mem) (c : Dev nD) : Cert.Spec.Mat 4096 512 :=
  Cert.Spec.mlp (N := 4096) (K := 4096) (H := 1024) (O := 512) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14))

def recA (m : Mem) (c : Dev nD) : Cert.Spec.Mat 4096 4096 :=
  Cert.Spec.mlp (N := 4096) (K := 1024) (H := 1024) (O := 4096)
    (Cert.Spec.hcat (C := 1024) (hM m c) (Cert.Spec.pool (m ((c.tc : Thread nD τ).loc main_arg0)) (hA m c))) (m ((c.tc : Thread nD τ).loc main_arg15)) (m ((c.tc : Thread nD τ).loc main_arg16)) (m ((c.tc : Thread nD τ).loc main_arg17)) (m ((c.tc : Thread nD τ).loc main_arg18))

def recD (m : Mem) (c : Dev nD) : Cert.Spec.Mat 4096 4096 :=
  Cert.Spec.mlp (N := 4096) (K := 1024) (H := 1024) (O := 4096)
    (Cert.Spec.hcat (C := 1024) (hM m c) (Cert.Spec.pool (m ((c.tc : Thread nD τ).loc main_arg1)) (hD m c))) (m ((c.tc : Thread nD τ).loc main_arg19)) (m ((c.tc : Thread nD τ).loc main_arg20)) (m ((c.tc : Thread nD τ).loc main_arg21)) (m ((c.tc : Thread nD τ).loc main_arg22))

theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v41) = recA m c
      ∧ r.2.mem ((c.tc : Thread nD τ).loc main_v50) = recD m c
      ∧ r.2.mem ((c.tc : Thread nD τ).loc main_v8) = hA m c
      ∧ r.2.mem ((c.tc : Thread nD τ).loc main_v17) = hD m c
      ∧ r.2.mem ((c.tc : Thread nD τ).loc main_v26) = hM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) := by
  refine (θ_run Cert.ReferenceIdeal.defs _ _).mono (fun r h c => ?_) (Cert.ReferenceIdeal.Value.run (F := Ideal) m ρ)
  obtain ⟨h41, h50, h8, h17, h26, hargs⟩ := h c
  refine ⟨h41.trans ?_, h50.trans ?_, h8.trans ?_, h17.trans ?_, h26.trans ?_, hargs⟩
  all_goals first
    | erw [mlp_term_eq, mlp_term_eq, mlp_term_eq, pool_term_eq, hcat_eq]
    | erw [mlp_term_eq]
  all_goals first | rfl | exact ⟨rfl, rfl, rfl, rfl, rfl, rfl⟩

end Cert.ReferenceIdeal.RefValue

end
-- ==== Proof.lean ====
import proofs.«177075_j77953656422623_1_alg».proof.Defs
import proofs.«177075_j77953656422623_1_alg».proof.Proof.Gen.Kernel
import proofs.«177075_j77953656422623_1_alg».proof.Proof.Gen.Kernel.Skeleton
import proofs.«177075_j77953656422623_1_alg».proof.Proof.Gen.Kernel.Launch
import proofs.«177075_j77953656422623_1_alg».proof.Proof.Gen.Kernel.Regions
import proofs.«177075_j77953656422623_1_alg».proof.Proof.Gen.Kernel.Points
import proofs.«177075_j77953656422623_1_alg».proof.Proof.Gen.KernelIdeal
import proofs.«177075_j77953656422623_1_alg».proof.Proof.Gen.KernelIdeal.Skeleton
import proofs.«177075_j77953656422623_1_alg».proof.Proof.Gen.KernelIdeal.Launch
import proofs.«177075_j77953656422623_1_alg».proof.Proof.Gen.KernelIdeal.Regions
import proofs.«177075_j77953656422623_1_alg».proof.Proof.Gen.KernelIdeal.Points
import proofs.«177075_j77953656422623_1_alg».proof.Proof.Gen.ReferenceIdeal
import proofs.«177075_j77953656422623_1_alg».proof.Proof.Gen.Pre_finite_inputs
import proofs.«177075_j77953656422623_1_alg».proof.Proof.KI.RunAll
import proofs.«177075_j77953656422623_1_alg».proof.Proof.K.Run
import proofs.«177075_j77953656422623_1_alg».proof.Proof.KI.Values
import proofs.«177075_j77953656422623_1_alg».proof.Proof.Ref
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernel_ideal : Cert.frame_KernelIdeal := fun m ρ _ => Cert.KernelIdeal.Hand.frame (F := Ideal) m ρ

-- the reference's run with its five values forgotten
theorem frame_reference : Cert.frame_ReferenceIdeal := fun m ρ _ =>
  (θ_run Cert.ReferenceIdeal.defs _ _).mono (fun _ h c => (h c).2.2.2.2.2) (Cert.ReferenceIdeal.RefValue.ref_run m ρ)

theorem preserves : Cert.preserves_Kernel_KernelIdeal := trivial

section KernelSide

open Cert.KernelIdeal Cert.KernelIdeal.Gen Cert.KernelIdeal.Hand Cert.KernelIdeal.HandValue

theorem mem_unscoped (b : Ref sig .tc) (hb : ¬(Proc.devRef (τ := τ) .tc b).isScoped) :
    Proc.devRef (τ := τ) .tc b ∈ Pipeline.ucRefs τ sig :=
  Finset.mem_filter.mpr ⟨StableHlo.devRef_mem_tcRefs b, hb⟩

-- every buffer ends at the chain's last valuation: the results at the specification's functions, the arguments as launched
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = recA m c
      ∧ r.2.mem ((c.tc : Thread nD τ).loc main_v33) = recD m c
      ∧ r.2.mem ((c.tc : Thread nD τ).loc main_v15) = hA m c
      ∧ r.2.mem ((c.tc : Thread nD τ).loc main_v18) = hD m c
      ∧ r.2.mem ((c.tc : Thread nD τ).loc main_v21) = hM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    have kept {b : Ref sig .tc} (hb : ¬(Proc.devRef (τ := τ) .tc b).isScoped)
        (e : V12 m (outs m) c b = m ((c : Thread nD τ).loc b)) :
        r.2.mem ((c.tc : Thread nD τ).loc b) = m ((c.tc : Thread nD τ).loc b) :=
      (h c _ (mem_unscoped b hb)).trans ((congrFun (V12_eq m c).symm _).trans e)
    ⟨(h c _ (mem_unscoped main_v30 (by decide))).trans (val_v30 m c),
      (h c _ (mem_unscoped main_v33 (by decide))).trans (val_v33 m c),
      (h c _ (mem_unscoped main_v15 (by decide))).trans (val_v15 m c),
      (h c _ (mem_unscoped main_v18 (by decide))).trans (val_v18 m c),
      (h c _ (mem_unscoped main_v21 (by decide))).trans (val_v21 m c),
      kept (by decide) (V12_main_arg0 m (outs m) c),
      kept (by decide) (V12_main_arg1 m (outs m) c),
      kept (by decide) (V12_main_arg2 m (outs m) c),
      kept (by decide) (V12_main_arg3 m (outs m) c),
      kept (by decide) (V12_main_arg4 m (outs m) c),
      kept (by decide) (V12_main_arg5 m (outs m) c),
      kept (by decide) (V12_main_arg6 m (outs m) c),
      kept (by decide) (V12_main_arg7 m (outs m) c),
      kept (by decide) (V12_main_arg8 m (outs m) c),
      kept (by decide) (V12_main_arg9 m (outs m) c),
      kept (by decide) (V12_main_arg10 m (outs m) c),
      kept (by decide) (V12_main_arg11 m (outs m) c),
      kept (by decide) (V12_main_arg12 m (outs m) c),
      kept (by decide) (V12_main_arg13 m (outs m) c),
      kept (by decide) (V12_main_arg14 m (outs m) c),
      kept (by decide) (V12_main_arg15 m (outs m) c),
      kept (by decide) (V12_main_arg16 m (outs m) c),
      kept (by decide) (V12_main_arg17 m (outs m) c),
      kept (by decide) (V12_main_arg18 m (outs m) c),
      kept (by decide) (V12_main_arg19 m (outs m) c),
      kept (by decide) (V12_main_arg20 m (outs m) c),
      kept (by decide) (V12_main_arg21 m (outs m) c),
      kept (by decide) (V12_main_arg22 m (outs m) c)⟩)
    (run_all (F := Ideal) m ρ)

end KernelSide

-- both programs end at the same functions of their arguments, and the arguments are equal by hypothesis
theorem algebraic : Cert.algebraic_KernelIdeal_ReferenceIdeal := by
  intro m ρ m' ρ' _ hagree
  refine ⟨fun c => Cert.KernelIdeal.HandValue.recA m c, fun c => Cert.KernelIdeal.HandValue.recD m c,
    fun c => Cert.KernelIdeal.HandValue.hA m c, fun c => Cert.KernelIdeal.HandValue.hD m c,
    fun c => Cert.KernelIdeal.HandValue.hM m c, kernel_run m ρ, ?_⟩
  refine (θ_run Cert.ReferenceIdeal.defs _ _).mono (fun _ h c => ?_) (Cert.ReferenceIdeal.RefValue.ref_run m' ρ')
  obtain ⟨h41, h50, h8, h17, h26, hargs⟩ := h c
  obtain ⟨e0, e1, e2, e3, e4, e5, e6, e7, e8, e9, e10, e11, e12, e13, e14, e15, e16, e17, e18, e19, e20, e21, e22⟩ := hagree c

  have ehA : Cert.ReferenceIdeal.RefValue.hA m' c = Cert.KernelIdeal.HandValue.hA m c :=
    Cert.KernelIdeal.HandValue.mlp_congr e0 e3 e4 e5 e6
  have ehD : Cert.ReferenceIdeal.RefValue.hD m' c = Cert.KernelIdeal.HandValue.hD m c :=
    Cert.KernelIdeal.HandValue.mlp_congr e1 e7 e8 e9 e10
  have ehM : Cert.ReferenceIdeal.RefValue.hM m' c = Cert.KernelIdeal.HandValue.hM m c :=
    Cert.KernelIdeal.HandValue.mlp_congr e2 e11 e12 e13 e14
  have eA : Cert.ReferenceIdeal.RefValue.recA m' c = Cert.KernelIdeal.HandValue.recA m c :=
    Cert.KernelIdeal.HandValue.mlp_congr
      (Cert.KernelIdeal.HandValue.hcat_congr (C := 1024) ehM (Cert.KernelIdeal.HandValue.pool_congr e0 ehA)) e15 e16 e17 e18
  have eD : Cert.ReferenceIdeal.RefValue.recD m' c = Cert.KernelIdeal.HandValue.recD m c :=
    Cert.KernelIdeal.HandValue.mlp_congr
      (Cert.KernelIdeal.HandValue.hcat_congr (C := 1024) ehM (Cert.KernelIdeal.HandValue.pool_congr e1 ehD)) e19 e20 e21 e22
  exact ⟨h41.trans eA, h50.trans eD, h8.trans ehA, h17.trans ehD, h26.trans ehM, hargs⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
